-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : IVec S1600000 32) (main_v13 : IVec S_ 1) (main_v15 : IVec S1600000 1) (main_c_5 : IVec S_ 32) : IVec S_ 1 :=
  let main_v16 : IVec S1600000 32 := broadcastInDim S1600000 ![] bcast_S_S1600000 main_c_5
  let main_v17 : IVec S1600000 1 := cmpi .slt main_arg4 main_v16
  let main_v18 : IVec S1600000 1 := andi main_v15 main_v17
  let main_c_6 : IVec S_ 1 := constantI S_ 1 1#1
  let main_v19 : IVec S_ 1 := (fun x v => Host.reduce IntOp.andi x v reducesTo_S1600000_S_d0 h_S_) main_v18 main_c_6
  let main_v20 : IVec S_ 1 := andi main_v13 main_v19
  main_v20

def fn {F : FTy → Type} [FloatOps F] (main_arg0 : FVec F S100000x128 .f32) (main_arg1 : FVec F S128x128 .f32) (main_arg2 : FVec F S1600000 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_c_4 : IVec S_ 32 := constantI S_ 32 0#32
  let main_v14 : IVec S1600000 32 := broadcastInDim S1600000 ![] bcast_S_S1600000 main_c_4
  let main_v15 : IVec S1600000 1 := cmpi .sge main_arg4 main_v14
  let main_c_5 : IVec S_ 32 := constantI S_ 32 100000#32
  fn_part1 (F := F) main_arg4 main_v13 main_v15 main_c_5
-- ==== Kernel.lean ====
abbrev S100000x128 : Shape := ⟨2, ![100000, 128]⟩
abbrev S128x128 : Shape := ⟨2, ![128, 128]⟩
abbrev S1600000 : Shape := ⟨1, ![1600000]⟩
abbrev S2000x128 : Shape := ⟨2, ![2000, 128]⟩
abbrev S_ : Shape := ⟨0, ![]⟩
abbrev S1601536 : Shape := ⟨1, ![1601536]⟩
abbrev S1x1601536 : Shape := ⟨2, ![1, 1601536]⟩
abbrev S100352x128 : Shape := ⟨2, ![100352, 128]⟩
abbrev S1601536x128 : Shape := ⟨2, ![1601536, 128]⟩
abbrev S1x4096 : Shape := ⟨2, ![1, 4096]⟩
abbrev S1024x128 : Shape := ⟨2, ![1024, 128]⟩
abbrev S4096x128 : Shape := ⟨2, ![4096, 128]⟩
abbrev S1024x1 : Shape := ⟨2, ![1024, 1]⟩
abbrev S1024x4096 : Shape := ⟨2, ![1024, 4096]⟩

abbrev nBuf : Space → Nat
  | .hbm => 24
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S100000x128, .f32⟩
  | .hbm, ⟨6, _⟩ => ⟨S_, .i32⟩
  | .hbm, ⟨7, _⟩ => ⟨S_, .i32⟩
  | .hbm, ⟨8, _⟩ => ⟨S1601536, .i32⟩
  | .hbm, ⟨9, _⟩ => ⟨S_, .i32⟩
  | .hbm, ⟨10, _⟩ => ⟨S_, .i32⟩
  | .hbm, ⟨11, _⟩ => ⟨S1601536, .i32⟩
  | .hbm, ⟨12, _⟩ => ⟨S_, .f32⟩
  | .hbm, ⟨13, _⟩ => ⟨S_, .f32⟩
  | .hbm, ⟨14, _⟩ => ⟨S1601536, .f32⟩
  | .hbm, ⟨15, _⟩ => ⟨S1x1601536, .i32⟩
  | .hbm, ⟨16, _⟩ => ⟨S1x1601536, .i32⟩
  | .hbm, ⟨17, _⟩ => ⟨S1x1601536, .f32⟩
  | .hbm, ⟨18, _⟩ => ⟨S_, .i32⟩
  | .hbm, ⟨19, _⟩ => ⟨S_, .f32⟩
  | .hbm, ⟨20, _⟩ => ⟨S100352x128, .f32⟩
  | .hbm, ⟨21, _⟩ => ⟨S1601536x128, .bf16⟩
  | .hbm, ⟨22, _⟩ => ⟨S100352x128, .f32⟩
  | .hbm, ⟨23, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S1x4096, .i32⟩
  | .local _ .vmem, ⟨6, _⟩ => ⟨S1x4096, .i32⟩
  | .local _ .vmem, ⟨7, _⟩ => ⟨S1x4096, .f32⟩
  | .local _ .vmem, ⟨8, _⟩ => ⟨S1x4096, .f32⟩
  | .local _ .vmem, ⟨9, _⟩ => ⟨S1024x128, .f32⟩
  | .local _ .vmem, ⟨10, _⟩ => ⟨S1024x128, .f32⟩
  | .local _ .vmem, ⟨11, _⟩ => ⟨S4096x128, .bf16⟩
  | .local _ .vmem, ⟨12, _⟩ => ⟨S4096x128, .bf16⟩
  | .local _ .vmem, ⟨13, _⟩ => ⟨S4096x128, .f32⟩
  | .local _ .vmem, ⟨14, _⟩ => ⟨S1x4096, .i32⟩
  | .local _ .vmem, ⟨15, _⟩ => ⟨S1x4096, .i32⟩
  | .local _ .vmem, ⟨16, _⟩ => ⟨S4096x128, .bf16⟩
  | .local _ .vmem, ⟨17, _⟩ => ⟨S4096x128, .bf16⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_cst : Ref sig .tc := ⟨.hbm, 12, rfl⟩
abbrev main_call2_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![391, 98], ![false, false]⟩

def k1_cond2 (i : grid1.Coords) : BitVec 1 :=
  let arg1 : BitVec 32 := BitVec.ofNat 32 (i 1).val
  let c97_i32 : BitVec 32 := 97#32
  let v29 : BitVec 1 := Scalar.cmpi .eq arg1 c97_i32
  let v30 : BitVec 32 := Scalar.extui v29
  let c0_i32_10 : BitVec 32 := 0#32
  let v31 : BitVec 1 := Scalar.cmpi .ne v30 c0_i32_10
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![98, 391], ![false, false]⟩

def k2_cond2 (i : grid2.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  pads_S1600000_S1601536_015360 : S1600000.Pads (![0] : Fin 1 → Nat) ![1536] ![0] S1601536
  h_S_ : 0 < S_.numel
  shapeCasts_S1601536_S1x1601536 : S1601536.ShapeCasts S1x1601536
  pads_S100000x128_S100352x128_03520_000 : S100000x128.Pads (![0, 0] : Fin 2 → Nat) ![352, 0] ![0, 0] S100352x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S1024x1_d0_w32 : S1024x1.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1024x1_S1024x4096 : S1024x1.Broadcasts S1024x4096
  broadcasts_S1x4096_S1024x4096 : S1x4096.Broadcasts S1024x4096
  natLt_1_32 : 1 < 32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  packedbf16_S4096x128_S4096x128_0_0 : (Rect.unit (s := S4096x128) ![0, 0] S4096x128.size inb_S4096x128_S4096x128_0_0).PackedRows (EltTy.packing .bf16)
  slices_S100352x128_S100000x128_0_0 : S100352x128.Slices ![0, 0] S100000x128
  dot_S2000x128_S128x128_S2000x128_1_0_0_1_n_n_wf : DotDims.WF S2000x128 S128x128 S2000x128 [1] [0] [0] [1] [] []
  dot_S1024x4096_S1024x128_S4096x128_0_0_1_1_n_n_wf : DotDims.WF S1024x4096 S1024x128 S4096x128 [0] [0] [1] [1] [] []
  dot_S1024x4096_S4096x128_S1024x128_1_0_0_1_n_n_wf : DotDims.WF S1024x4096 S4096x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x1601536.size a
  hwx1_0 : ∀ i : grid1.Coords, EltTy.bits .i32 = 32 ∨ (Rect.block (s := S1x1601536) S1x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x1601536.size a
  hwx1_1 : ∀ i : grid1.Coords, EltTy.bits .f32 = 32 ∨ (Rect.block (s := S1x1601536) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S100352x128.size a
  hwx1_2 : ∀ i : grid1.Coords, EltTy.bits .f32 = 32 ∨ (Rect.block (s := S100352x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S1601536x128.size a
  hwx1_3 : ∀ i : grid1.Coords, EltTy.bits .bf16 = 32 ∨ (Rect.block (s := S1601536x128) S4096x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x1601536.size a
  hwx2_0 : ∀ i : grid2.Coords, EltTy.bits .i32 = 32 ∨ (Rect.block (s := S1x1601536) S1x4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S1601536x128.size a
  hwx2_1 : ∀ i : grid2.Coords, EltTy.bits .bf16 = 32 ∨ (Rect.block (s := S1601536x128) S4096x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S100352x128.size a
  hwx2_2 : ∀ i : grid2.Coords, EltTy.bits .f32 = 32 ∨ (Rect.block (s := S100352x128) S1024x128.size (cc2_transform_2 i) (hinb2_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1024x4096_S1024x128_S4096x128_0_0_1_1_n_n : DotDims S1024x4096 S1024x128 S4096x128 where
  lhsContracting := [0]
  rhsContracting := [0]
  lhsNonContracting := [1]
  rhsNonContracting := [1]
  lhsBatch := []
  rhsBatch := []
  wf := dot_S1024x4096_S1024x128_S4096x128_0_0_1_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v5) S1x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S128x128 : Shape := ⟨2, ![128, 128]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩

abbrev nBuf : Space → Nat
  | .hbm => 22
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S100000x128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.K.Sched.lean ====
import proofs.«418018_j53446573032075_1_alg».proof.Proof.Gen.Kernel.Launch
import Idealize.ShloMosaic.Lib.Pipeline.Kit

noncomputable section

namespace Cert.Kernel.Hand

open Idealize.ShloMosaic Idealize.ShloMosaic.TcCoe
open Idealize.SL Idealize.SL.Sem
open Cert.Kernel Cert.Kernel.Gen

variable {F : FTy → Type} [FloatOps F]

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev bodyAt0 (t : Fin cfg0.N) : Prog (TpuEff nD τ sig (Elt F) Λ₀ .tc) PUnit :=
  cc0__dense_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
abbrev bodyAt1 (t : Fin cfg1.N) : Prog (TpuEff nD τ sig (Elt F) Λ₀ .tc) PUnit :=
  cc1__stage_a_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)
abbrev bodyAt2 (t : Fin cfg2.N) : Prog (TpuEff nD τ sig (Elt F) Λ₀ .tc) PUnit :=
  cc2__stage_b_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (Memref.whole cc2_scratch0) (Memref.isWhole_whole _)

theorem lt1 (t : Fin cfg1.N) : t.val < 38318 := lt_of_lt_of_eq t.isLt N_1
theorem lt2 (t : Fin cfg2.N) : t.val < 38318 := lt_of_lt_of_eq t.isLt N_2

-- A point `t` of a grid `(A, B)` has coordinates `(t / B, t % B)`.
theorem coords1_0 (t : Fin cfg1.N) : ((grid1.coords t) 0).val = t.val / 98 := by
  have h := lt1 t
  show t.val / 98 % 391 = t.val / 98
  omega
theorem coords1_1 (t : Fin cfg1.N) : ((grid1.coords t) 1).val = t.val % 98 := by
  show t.val / 1 % 98 = t.val % 98
  rw [Nat.div_one]
theorem coords2_0 (t : Fin cfg2.N) : ((grid2.coords t) 0).val = t.val / 391 := by
  have h := lt2 t
  show t.val / 391 % 98 = t.val / 391
  omega
theorem coords2_1 (t : Fin cfg2.N) : ((grid2.coords t) 1).val = t.val % 391 := by
  show t.val / 1 % 391 = t.val % 391
  rw [Nat.div_one]

theorem index1_3 (t : Fin cfg1.N) : win1_3.index t = ![t.val / 98, 0] := by
  show ![(BitVec.ofNat 32 _).toNat, 0] = _
  rw [BitVec.toNat_ofNat, coords1_0, Nat.mod_eq_of_lt (by have := lt1 t; omega)]
theorem index2_2 (t : Fin cfg2.N) : win2_2.index t = ![t.val / 391, 0] := by
  show ![(BitVec.ofNat 32 _).toNat, 0] = _
  rw [BitVec.toNat_ofNat, coords2_0, Nat.mod_eq_of_lt (by have := lt2 t; omega)]

-- The block index changes exactly where the quotient `t / B` does.
theorem flush_iff_div {G : Pipeline.Grid} (w : Pipeline.Window sig G) (B : ℕ) (ho : w.isOut = true) (f : ℕ → Fin w.shape.rank → ℕ)
    (hf : f.Injective) (hi : ∀ t, w.index t = f (t.val / B)) (t : Fin G.N) :
    w.flush t = true ↔ t.val + 1 = G.N ∨ ∃ _ : t.val + 1 < G.N, (t.val + 1) / B ≠ t.val / B := by
  unfold Pipeline.Window.flush
  rw [ho, Bool.true_and, Bool.or_eq_true, decide_eq_true_eq, decide_eq_true_eq]
  simp only [hi, hf.ne_iff]

theorem flush1_3_iff (t : Fin cfg1.N) : (cfg1.win 3).flush t = true ↔ t.val % 98 = 97 :=
  (flush_iff_div win1_3 98 rfl (![·, 0]) (fun _ _ h => congrFun h 0) index1_3 t).trans (by
    have h := lt1 t; have hN : grid1.N = 38318 := N_1; simp only [exists_prop]; omega)
theorem flush2_2_iff (t : Fin cfg2.N) : (cfg2.win 2).flush t = true ↔ t.val % 391 = 390 :=
  (flush_iff_div win2_2 391 rfl (![·, 0]) (fun _ _ h => congrFun h 0) index2_2 t).trans (by
    have h := lt2 t; have hN : grid2.N = 38318 := N_2; simp only [exists_prop]; omega)

theorem flush0_2 : ∀ t : Fin cfg0.N, (cfg0.win 2).flush t = true :=
  (by decide +kernel : ∀ t : Fin grid0.N, win0_2.flush t = true)

end Cert.Kernel.Hand

end
-- ==== Proof.K.Reg0.lean ====
import proofs.«418018_j53446573032075_1_alg».proof.Proof.Gen.Kernel.Launch
import proofs.«418018_j53446573032075_1_alg».proof.Proof.Gen.Kernel.Skeleton
import proofs.«418018_j53446573032075_1_alg».proof.Proof.K.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0

def out0_2 (x0 : Vec F S2000x128 .f32) (x1 : Vec F S128x128 .f32) : Vec F S2000x128 .f32 :=
  View.canon [⟨r0_x, k0_pay1 (View.ld x0 r0_x) (View.ld x1 r0_w)⟩]

theorem sound_kernel0 (c : Dev nD) (E : Set ℕ) (i : grid0.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe H0; ipureintro; rfl
  isplitl [H1]; · iexists f1; iframe H1; ipureintro; rfl
  iexists _; iframe H2; ipureintro
  exact View.read_writes_eq_canon _ _ _ (View.cover_of_tiled _ S2000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl
theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = out0_2 (iblk0 V c 0 t) (iblk0 V c 1 t) := by dsimp only [dat0]

theorem before0_in {c : Dev nD} (dat : Dat τ (Elt F) Unit ℕ (UR sig nD τ) ℕ cfg0 c) (hA : ∀ w, dat.A w = V c (Pipeline.arrRef spec0 w))
    (h0 : ∀ t, dat.after 0 t = iblk0 V c 0 t) (h1 : ∀ t, dat.after 1 t = iblk0 V c 1 t) (t : Fin cfg0.N) :
    (∀ d, dat.before 0 t d = iblk0 V c 0 t) ∧ ∀ d, dat.before 1 t d = iblk0 V c 1 t := by
  constructor <;> exact fun d => (dat.before_in_eq_fetched _ rfl (fun _ => rfl) (fun _ _ _ => rfl)
    (fun t => by simp only [h0, h1]; unfold Dat.blockOf iblk0; rw [hA]; try rfl) t d).trans
    (by unfold Dat.fetched Dat.blockOf iblk0; rw [hA]; try rfl)

-- The body's triple at the inputs' blocks; the rest passes through.
theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) fun _ =>
      iprop((dat0 V c).Φ t.castSucc ∗ (dat0 V c).owesAt () t.castSucc
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t))
  have hb := before0_in V (dat0 V c) (A_eq0 V c) (after0_0 V c) (after0_1 V c) t
  simp only [hb.1, hb.2]
  rw [after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ Ho H0 H1 H2

end Cert.Kernel.Hand

end
-- ==== Proof.LibOwn.lean ====
import Idealize.ShloMosaic.Lib.Pipeline.Frame
import Idealize.ShloMosaic.Lib.Ring
import Idealize.ShloMosaic.Lib.Pipeline.Value

noncomputable section

namespace Idealize.ShloMosaic

open Idealize.SL Idealize.SL.BI
open scoped Idealize.SL.BI
open Idealize.SL.BI.BIBase Idealize.SL.BI.Laws Idealize.SL.ProofMode Idealize.SL.Sem
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A whole memref is owned at `X` exactly when its elements are held at the one raw contents that reads `X`. -/
theorem owns_eq_unread (c : Thread nD τ) {sp : Space} {sh : Shape} {e : EltTy} {m : Memref sig c.2.kind sp sh e} (h : m.IsWhole)
    (q : PosShare TreeShare) (X : sh.Idx → Val e) :
    (owns c m q X : sProp 𝕄) = (m.view.loc c ↦[m.view.set]{q} h.unread X) := by
  unfold owns
  refine BI.equiv_iff.mp ⟨?_, ?_⟩
  · show (_ : sProp 𝕄) ⊢ _
    iintro ⟨%f, %hf, H⟩; obtain rfl := h.eq_unread hf; iexact H
  · show (_ : sProp 𝕄) ⊢ _
    iintro H; iexists _; isplitr
    · ipureintro; exact h.read_unread _
    iexact H

/-- Pieces that tile a memref leave it owned at their read-back through any view of its shape. -/
theorem owns_of_tiledL [∀ e, Nonempty (Val e)] (c : Thread nD τ) {sp : Space} {sh : Shape} {e : EltTy} {κ' : Kind} {sp' : Space}
    (m : Memref sig c.2.kind sp sh e) (v' : View sig κ' sp' sh e) (q : PosShare TreeShare)
    (L : List (View.Piece Val sh e)) (hL : View.Piece.tiledL L sh.size = true) :
    (iprop(∃ f, m.view.loc c ↦[m.view.set]{q} m.view.writes Val f L) : sProp 𝕄)
      ⊢ owns c m q (v'.read Val (v'.writes Val v'.junk L)) := by
  iintro ⟨%f, H⟩
  iapply (Ring.owns_of_writes_tiledL v' sh.size) $$ H
  ipureintro; exact hL

theorem hz2 : (![0, 0] : Fin 2 → Nat) = fun _ => 0 := funext fun a => by fin_cases a <;> rfl

/-- A store through the whole-shape rectangle, made last, leaves its payload whatever was stored before. -/
theorem read_store [∀ e, Nonempty (Val e)] {κ : Kind} {sp : Space} {e : EltTy} (S : Shape) {off : Fin S.rank → ℕ} (hz : off = fun _ => 0) {inb}
    {v : View sig κ sp S e} {f : v.ty.Contents Val} {w : S.Idx → Val e} {L : List (View.Piece Val S e)} :
    v.read Val (v.writes Val f (⟨Rect.unit off S.size inb, w⟩ :: L)) = w :=
  (View.read_writes_eq_canon v f _ fun y => ⟨_, List.mem_cons_self, View.mem_set_unit_zero hz inb y⟩).trans (View.canon_cons_unit_zero hz inb w L)

/-- A load of a whole buffer through the whole-shape rectangle reads what the buffer holds. -/
theorem readAt_whole {κ : Kind} {sp : Space} {S : Shape} {e : EltTy} {m : Memref sig κ sp S e} (h : m.IsWhole) {off : Fin S.rank → ℕ}
    (hz : off = fun _ => 0) {inb} (X : S.Idx → Val e) :
    m.view.readAt Val (Rect.unit off S.size inb).toLoadRect (h.unread X) = X := by
  rw [View.readAt_eq_ld, h.read_unread, View.ld_unit_zero hz]

end Idealize.ShloMosaic

end
-- ==== Proof.K.Reg1Base.lean ====
import proofs.«418018_j53446573032075_1_alg».proof.Proof.Gen.Kernel.Launch
import proofs.«418018_j53446573032075_1_alg».proof.Proof.Gen.Kernel.Skeleton
import proofs.«418018_j53446573032075_1_alg».proof.Proof.LibOwn
import proofs.«418018_j53446573032075_1_alg».proof.Proof.K.Sched
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The body's two tests on the inner coordinate: is it 0, is it 97.
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

theorem hcond1_0 (t : Fin cfg1.N) : cond1_0 (grid1.coords t) ↔ t.val % 98 = 0 :=
  ((by decide +kernel : ∀ k : Fin 98, ((Scalar.cmpi .ne (Scalar.extui (Scalar.cmpi .eq (BitVec.ofNat 32 k.val) 0#32)) 0#32) = 1#1) ↔ k.val = 0)
    ((grid1.coords t) 1)).trans (by rw [coords1_1])
theorem hcond1_1 (t : Fin cfg1.N) : cond1_1 (grid1.coords t) ↔ t.val % 98 = 97 :=
  ((by decide +kernel : ∀ k : Fin 98, ((Scalar.cmpi .ne (Scalar.extui (Scalar.cmpi .eq (BitVec.ofNat 32 k.val) 97#32)) 0#32) = 1#1) ↔ k.val = 97)
    ((grid1.coords t) 1)).trans (by rw [coords1_1])

theorem idleAt1_3 (t : Fin cfg1.N) (h : ¬cond1_1 (grid1.coords t)) : cfg1.idle 3 (grid1.coords t) = true := by
  show (!(k1_cond2 (grid1.coords t) == 1#1)) = true
  rw [Bool.not_eq_true', beq_eq_false_iff_ne]; exact h
theorem liveAt1_3 (t : Fin cfg1.N) (h : cond1_1 (grid1.coords t)) : cfg1.idle 3 (grid1.coords t) = false := by
  show (!(k1_cond2 (grid1.coords t) == 1#1)) = false
  rw [Bool.not_eq_false', beq_iff_eq]; exact h

abbrev ms1_0 (t : Fin cfg1.N) : Memref sig .tc .vmem S1x4096 .i32 := win1_0.stage (cfg1.slots t 0)
abbrev ms1_1 (t : Fin cfg1.N) : Memref sig .tc .vmem S1x4096 .f32 := win1_1.stage (cfg1.slots t 1)
abbrev ms1_2 (t : Fin cfg1.N) : Memref sig .tc .vmem S1024x128 .f32 := win1_2.stage (cfg1.slots t 2)
abbrev ms1_3 (t : Fin cfg1.N) : Memref sig .tc .vmem S4096x128 .bf16 := win1_3.stage (cfg1.slots t 3)
abbrev scM1_0 : Memref sig .tc .vmem S4096x128 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

-- The class invariant with the accumulator singled out at some contents.
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA
  rw [Pipeline.scopedRest_split_of_list spec1 c [cc1_scratch0] (by decide) (by decide)]
  simp only [scM1_0, owns_whole]; rfl

end Cert.Kernel.Hand

end
-- ==== Proof.K.Reg1Run.lean ====
import proofs.«418018_j53446573032075_1_alg».proof.Proof.K.Reg1Base

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (c : Dev nD) (i : grid1.Coords) (arg2 : Memref sig .tc .vmem S1x4096 .i32) (harg2 : arg2.IsWhole) (arg3 : Memref sig .tc .vmem S1x4096 .f32) (harg3 : arg3.IsWhole) (arg4 : Memref sig .tc .vmem S1024x128 .f32) (harg4 : arg4.IsWhole) (arg5 : Memref sig .tc .vmem S4096x128 .bf16) (harg5 : arg5.IsWhole) (arg6 : Memref sig .tc .vmem S4096x128 .f32) (harg6 : arg6.IsWhole)
  (x0 : Vec F S1x4096 .i32) (x1 : Vec F S1x4096 .f32) (x2 : Vec F S1024x128 .f32)

-- The body's triple on whole memrefs: inputs handed back as found, the output block from `o` to `o'`, the accumulator from `s` to `s'`.
def Spec1 (o o' : Vec F S4096x128 .bf16) (s s' : Vec F S4096x128 .f32) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare o ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare o' ∗ owns (c : Thread nD τ) arg6 fullShare s') -∗ K ⟨⟩))
      ⊢ wp frame (wpE (defs₀ (F := F)) Variants.none c none) E (cc1__stage_a_kernel i arg2 harg2 arg3 harg3 arg4 harg4 arg5 harg5 arg6 harg6) K

theorem run1_A (hc0 : cond1_0 i) (hc1 : ¬cond1_1 i) (o : Vec F S4096x128 .bf16) (s : Vec F S4096x128 .f32) :
    Spec1 c i arg2 harg2 arg3 harg3 arg4 harg4 arg5 harg5 arg6 harg6 x0 x1 x2 o o s (k1_pay2 i x0 x1 x2 k1_pay1) := by
  intro E K
  simp only [cc1__stage_a_kernel_eq_skeleton, owns_eq_unread (c : Thread nD τ) harg2, owns_eq_unread (c : Thread nD τ) harg3, owns_eq_unread (c : Thread nD τ) harg4, owns_eq_unread (c : Thread nD τ) harg5]
  unfold cc1__stage_a_kernel_skel owns
  iintro ⟨H0, H1, H2, H3, ⟨%fs0, -, HS0⟩, Hk⟩
  sl_exec (disch := first | exact hc0 | exact hc1)
  sl_step
  iapply Hk
  iframe H0 H1 H2 H3
  iexists _; isplitr; swap; · iexact HS0
  ipureintro; sl_unfold_words
  rw [read_store S4096x128 hz2, View.readCov_unit_zero (S := S4096x128) _ hz2, readAt_whole harg2 hz2, readAt_whole harg3 hz2, readAt_whole harg4 hz2]

theorem run1_B (hc0 : ¬cond1_0 i) (hc1 : ¬cond1_1 i) (o : Vec F S4096x128 .bf16) (s : Vec F S4096x128 .f32) :
    Spec1 c i arg2 harg2 arg3 harg3 arg4 harg4 arg5 harg5 arg6 harg6 x0 x1 x2 o o s (k1_pay2 i x0 x1 x2 s) := by
  intro E K
  simp only [cc1__stage_a_kernel_eq_skeleton, owns_eq_unread (c : Thread nD τ) harg2, owns_eq_unread (c : Thread nD τ) harg3, owns_eq_unread (c : Thread nD τ) harg4, owns_eq_unread (c : Thread nD τ) harg5]
  unfold cc1__stage_a_kernel_skel owns
  iintro ⟨H0, H1, H2, H3, ⟨%fs0, %hfs0, HS0⟩, Hk⟩
  obtain rfl := harg6.eq_unread hfs0
  sl_exec (disch := first | exact hc0 | exact hc1)
  sl_step
  iapply Hk
  iframe H0 H1 H2 H3
  iexists _; isplitr; swap; · iexact HS0
  ipureintro; sl_unfold_words
  rw [read_store S4096x128 hz2, readAt_whole harg2 hz2, readAt_whole harg3 hz2, readAt_whole harg4 hz2, readAt_whole harg6 hz2]

theorem run1_C (hc0 : ¬cond1_0 i) (hc1 : cond1_1 i) (o : Vec F S4096x128 .bf16) (s : Vec F S4096x128 .f32) :
    Spec1 c i arg2 harg2 arg3 harg3 arg4 harg4 arg5 harg5 arg6 harg6 x0 x1 x2 o (k1_pay3 (k1_pay2 i x0 x1 x2 s)) s (k1_pay2 i x0 x1 x2 s) := by
  intro E K
  simp only [cc1__stage_a_kernel_eq_skeleton, owns_eq_unread (c : Thread nD τ) harg2, owns_eq_unread (c : Thread nD τ) harg3, owns_eq_unread (c : Thread nD τ) harg4]
  unfold cc1__stage_a_kernel_skel owns
  iintro ⟨H0, H1, H2, ⟨%f3, -, H3⟩, ⟨%fs0, %hfs0, HS0⟩, Hk⟩
  obtain rfl := harg6.eq_unread hfs0
  sl_exec (disch := first | exact hc0 | exact hc1)
  sl_step
  iapply Hk
  iframe H0 H1 H2
  isplitl [H3]
  · iexists _; isplitr; swap; · iexact H3
    ipureintro; sl_unfold_words
    rw [read_store S4096x128 hz2, View.readCov_unit_zero (S := S4096x128) _ hz2, readAt_whole harg2 hz2, readAt_whole harg3 hz2, readAt_whole harg4 hz2, readAt_whole harg6 hz2]
  iexists _; isplitr; swap; · iexact HS0
  ipureintro; sl_unfold_words
  rw [read_store S4096x128 hz2, readAt_whole harg2 hz2, readAt_whole harg3 hz2, readAt_whole harg4 hz2, readAt_whole harg6 hz2]

end Cert.Kernel.Hand

end
-- ==== Proof.K.Reg1.lean ====
import proofs.«418018_j53446573032075_1_alg».proof.Proof.K.Reg1Run
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def accAt1 (c : Dev nD) : (n : ℕ) → n < cfg1.N → Vec F S4096x128 .f32
  | 0, hn => k1_pay2 (grid1.coords ⟨0, hn⟩) (iblk1 V c 0 ⟨0, hn⟩) (iblk1 V c 1 ⟨0, hn⟩) (iblk1 V c 2 ⟨0, hn⟩) k1_pay1
  | n + 1, hn => k1_pay2 (grid1.coords ⟨n + 1, hn⟩) (iblk1 V c 0 ⟨n + 1, hn⟩) (iblk1 V c 1 ⟨n + 1, hn⟩) (iblk1 V c 2 ⟨n + 1, hn⟩)
      (if (n + 1) % 98 = 0 then k1_pay1 else accAt1 c n (Nat.lt_of_succ_lt hn))

def outsAt1 (c : Dev nD) (n : ℕ) (hn : n < cfg1.N) : Vec F S4096x128 .bf16 × Vec F S4096x128 .f32 :=
  (k1_pay3 (accAt1 V c n hn), accAt1 V c n hn)

theorem sc1_first (c : Dev nD) (t : Fin cfg1.N) (h : t.val % 98 = 0) :
    (outsAt1 V c t.val t.isLt).2 = k1_pay2 (grid1.coords t) (iblk1 V c 0 t) (iblk1 V c 1 t) (iblk1 V c 2 t) (k1_pay1 (F := F)) := by
  obtain ⟨n, hn⟩ := t
  cases n with
  | zero => rfl
  | succ n => exact congrArg (k1_pay2 _ _ _ _) (if_pos h)

theorem sc1_next (c : Dev nD) (t : Fin cfg1.N) (h : t.val % 98 ≠ 0) :
    (outsAt1 V c t.val t.isLt).2 = k1_pay2 (grid1.coords t) (iblk1 V c 0 t) (iblk1 V c 1 t) (iblk1 V c 2 t) (outsAt1 V c (t.val - 1) (Nat.lt_of_le_of_lt (Nat.sub_le _ _) t.isLt)).2 := by
  obtain ⟨n, hn⟩ := t
  cases n with
  | zero => exact absurd (Nat.zero_mod _) h
  | succ n => exact congrArg (k1_pay2 _ _ _ _) (if_neg h)

theorem out1_last (c : Dev nD) (t : Fin cfg1.N) (h : t.val % 98 = 97) :
    (outsAt1 V c t.val t.isLt).1 = k1_pay3 (outsAt1 V c t.val t.isLt).2 := rfl

def PhiS1 (c : Dev nD) : (n : ℕ) → n ≤ cfg1.N → sProp 𝕄
  | 0, _ => Pipeline.ΦA spec1 c
  | n + 1, hn => iprop(iprop(owns (c : Thread nD τ) scM1_0 fullShare (outsAt1 V c n hn).2 ∗ rest1 (F := F) c) ∗ (∃ r, prngReg c r))

theorem PhiS1_pos (c : Dev nD) (n : ℕ) (h : n ≤ cfg1.N) (hz : n ≠ 0) :
    PhiS1 V c n h = iprop(iprop(owns (c : Thread nD τ) scM1_0 fullShare (outsAt1 V c (n - 1) (by omega)).2 ∗ rest1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem noFlush1_3 (t : Fin cfg1.N) (h : ¬t.val % 98 = 97) : (cfg1.win 3).flush t = false := by
  rw [← Bool.not_eq_true]; exact fun hf => h ((flush1_3_iff t).mp hf)

theorem Phi_weak1 (c : Dev nD) (t : Fin (cfg1.N + 1)) :
    (dat1 V c).Φ t ⊢ iprop(iprop((∃ d, owns (c : Thread nD τ) scM1_0 fullShare d) ∗ rest1 (F := F) c) ∗ (∃ r, prngReg c r)) := by
  obtain ⟨n, hn⟩ := t
  cases n with
  | zero => show (Pipeline.ΦA spec1 c : sProp 𝕄) ⊢ _; rw [PhiA1_eq]
  | succ n =>
    show iprop(iprop(owns (c : Thread nD τ) scM1_0 fullShare (outsAt1 V c n _).2 ∗ rest1 (F := F) c) ∗ (∃ r, prngReg c r)) ⊢ _
    iintro ⟨⟨HS0, HR⟩, Hg⟩
    iframe HR Hg
    iexists _; iexact HS0

theorem hin1 (c : Dev nD) : (Pipeline.ΦA spec1 c : sProp 𝕄) ⊢ (dat1 V c).Φ 0 := Idealize.SL.BI.Entails.refl _

theorem hout1 (c : Dev nD) : (dat1 V c).Φ (Fin.last cfg1.N) ⊢ (Pipeline.ΦA spec1 c : sProp 𝕄) := by
  rw [PhiA1_eq]; exact Phi_weak1 V c _

-- The inner coordinate `t % 98` selects the case whose triple applies; everything but the accumulator and the output block passes through.
theorem body_obligation1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
    ⊢ wp frame (wpE (defs₀ (F := F)) Variants.none c none) Set.univ (bodyAt1 t) (fun _ =>
      iprop(iprop(iprop(owns (c : Thread nD τ) scM1_0 fullShare (outsAt1 V c t.val t.isLt).2 ∗ rest1 (F := F) c) ∗ (∃ r, prngReg c r))
        ∗ (dat1 V c).owesAt () t.castSucc ∗ owns (c : Thread nD τ) (ms1_0 t) fullShare (iblk1 V c 0 t)
        ∗ owns (c : Thread nD τ) (ms1_1 t) fullShare (iblk1 V c 1 t) ∗ owns (c : Thread nD τ) (ms1_2 t) fullShare (iblk1 V c 2 t)
        ∗ (dat1 V c).leavesExact 3 t))
  simp only [before1_0, before1_1, before1_2]
  by_cases h0 : t.val % 98 = 0
  · have h1 : ¬t.val % 98 = 97 := by omega
    have hc1 : ¬cond1_1 (grid1.coords t) := fun h => h1 ((hcond1_1 t).mp h)
    rw [Dat.leavesExact_idle (dat1 V c) 3 t (idleAt1_3 t hc1) (noFlush1_3 t h1), sc1_first V c t h0]
    iintro ⟨HΦ, Ho, ⟨%d0, H0⟩, ⟨%d1, H1⟩, ⟨%d2, H2⟩, ⟨%d3, H3⟩⟩
    ihave HΦ := (Phi_weak1 V c t.castSucc) $$ HΦ
    icases HΦ with ⟨⟨⟨%s, HS0⟩, HR⟩, Hg⟩
    iapply (run1_A c _ _ _ _ _ _ _ _ _ _ _ _ _ _ ((hcond1_0 t).mpr h0) hc1 _ _ Set.univ _)
    iframe H0 H1 H2 H3 HS0
    iintro ⟨H0, H1, H2, H3, HS0⟩
    iframe HS0 HR Hg Ho H0 H1 H2
    iexists _; iexact H3
  · have hc0 : ¬cond1_0 (grid1.coords t) := fun h => h0 ((hcond1_0 t).mp h)
    rw [sc1_next V c t h0, show (dat1 V c).Φ t.castSucc = PhiS1 V c t.val (Nat.le_of_lt t.isLt) from rfl,
      PhiS1_pos V c _ _ fun e => h0 (by rw [e])]
    by_cases h1 : t.val % 98 = 97
    · have hc1 := (hcond1_1 t).mpr h1
      rw [show (dat1 V c).leavesExact 3 t = owns (c : Thread nD τ) (ms1_3 t) fullShare (k1_pay3 (outsAt1 V c t.val t.isLt).2) from by
        unfold Dat.leavesExact; rw [liveAt1_3 t hc1]; rfl, sc1_next V c t h0]
      iintro ⟨⟨⟨HS0, HR⟩, Hg⟩, Ho, ⟨%d0, H0⟩, ⟨%d1, H1⟩, ⟨%d2, H2⟩, ⟨%d3, H3⟩⟩
      iapply (run1_C c _ _ _ _ _ _ _ _ _ _ _ _ _ _ hc0 hc1 _ _ Set.univ _)
      iframe H0 H1 H2 H3 HS0
      iintro ⟨H0, H1, H2, H3, HS0⟩
      iframe HS0 HR Hg Ho H0 H1 H2 H3
    · have hc1 : ¬cond1_1 (grid1.coords t) := fun h => h1 ((hcond1_1 t).mp h)
      rw [Dat.leavesExact_idle (dat1 V c) 3 t (idleAt1_3 t hc1) (noFlush1_3 t h1)]
      iintro ⟨⟨⟨HS0, HR⟩, Hg⟩, Ho, ⟨%d0, H0⟩, ⟨%d1, H1⟩, ⟨%d2, H2⟩, ⟨%d3, H3⟩⟩
      iapply (run1_B c _ _ _ _ _ _ _ _ _ _ _ _ _ _ hc0 hc1 _ _ Set.univ _)
      iframe H0 H1 H2 H3 HS0
      iintro ⟨H0, H1, H2, H3, HS0⟩
      iframe HS0 HR Hg Ho H0 H1 H2
      iexists _; iexact H3

end Cert.Kernel.Hand

end
-- ==== Proof.K.Reg2Base.lean ====
import proofs.«418018_j53446573032075_1_alg».proof.Proof.Gen.Kernel.Launch
import proofs.«418018_j53446573032075_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic
import proofs.«418018_j53446573032075_1_alg».proof.Proof.LibOwn

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's two tests on the inner coordinate: is it 0, is it 390. -/
abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

theorem cond2_0_iff (i : grid2.Coords) : cond2_0 i ↔ (i 1).val = 0 :=
  (by decide +kernel : ∀ k : Fin 391, (Scalar.cmpi .ne (Scalar.extui (Scalar.cmpi .eq (BitVec.ofNat 32 k.val) 0#32)) 0#32) = 1#1 ↔ k.val = 0) (i 1)
theorem cond2_1_iff (i : grid2.Coords) : cond2_1 i ↔ (i 1).val = 390 :=
  (by decide +kernel : ∀ k : Fin 391, (Scalar.cmpi .ne (Scalar.extui (Scalar.cmpi .eq (BitVec.ofNat 32 k.val) 390#32)) 0#32) = 1#1 ↔ k.val = 390) (i 1)

theorem idleAt2_2 (t : Fin cfg2.N) (h1 : ¬cond2_1 (grid2.coords t)) : cfg2.idle 2 (grid2.coords t) = true := by
  show (!(k2_cond2 (grid2.coords t) == 1#1)) = true
  rw [Bool.not_eq_true', beq_eq_false_iff_ne]; exact h1
theorem liveAt2_2 (t : Fin cfg2.N) (h1 : cond2_1 (grid2.coords t)) : cfg2.idle 2 (grid2.coords t) = false := by
  show (!(k2_cond2 (grid2.coords t) == 1#1)) = false
  rw [Bool.not_eq_false', beq_iff_eq]; exact h1

/-- The memrefs the body is called with at point `t`, each a whole buffer, and the scratch that carries the running sum. -/
abbrev ms2_0 (t : Fin cfg2.N) : Memref sig .tc .vmem S1x4096 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
abbrev scM2_0 : Memref sig .tc .vmem S1024x128 .f32 := Memref.whole cc2_scratch0

/-- The core's other scoped buffers, which this region never opens. -/
abbrev others2 (c : Dev nD) : sProp 𝕄 :=
  Pipeline.scopedRestBut (Ix := Unit) (Name := ℕ) (U := UR sig nD τ) (Lvl := ℕ) (Val := Elt F) spec2 c [cc2_scratch0]

/-- The invariant the region is entered and left with, its scratch singled out at some contents. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA
  rw [Pipeline.scopedRest_split_of_list spec2 c [cc2_scratch0] (by decide) (by decide)]
  simp only [scM2_0, owns_whole]; try rfl

/-- The body's triple on whole memrefs: from the inputs at `x0`, `x1`, the output block at `o` and the scratch at `s`, it hands
    the inputs back as found, the output block at `o'` and the scratch at `s'`. -/
def Spec2 (c : Dev nD) (i : grid2.Coords) (arg2 : Memref sig .tc .vmem S1x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole)
    (x0 : Vec F S1x4096 .i32) (x1 : Vec F S4096x128 .bf16) (s o s' o' : Vec F S1024x128 .f32) : Prop :=
  ∀ (E : Set ℕ) (K : PUnit → sProp 𝕄),
    iprop(owns (c : Thread nD τ) arg2 fullShare x0 ∗ owns (c : Thread nD τ) arg3 fullShare x1 ∗ owns (c : Thread nD τ) arg4 fullShare o ∗ owns (c : Thread nD τ) arg5 fullShare s
        ∗ (iprop(owns (c : Thread nD τ) arg2 fullShare x0 ∗ owns (c : Thread nD τ) arg3 fullShare x1 ∗ owns (c : Thread nD τ) arg4 fullShare o' ∗ owns (c : Thread nD τ) arg5 fullShare s') -∗ K ⟨⟩))
      ⊢ wp frame (wpE (defs₀ (F := F)) Variants.none c none) E (cc2__stage_b_kernel i arg2 harg2 arg3 harg3 arg4 harg4 arg5 harg5) K

end Cert.Kernel.Hand

end
-- ==== Proof.K.Reg2RunA.lean ====
import proofs.«418018_j53446573032075_1_alg».proof.Proof.K.Reg2Base

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Kernel Cert.Kernel.Gen

variable {F : FTy → Type} [FloatOps F]

local notation "𝕄" => MT nD τ sig Unit (Elt F) ℕ (UR sig nD τ) ℕ

/-- At inner coordinate 0 the body restarts the sum: the scratch ends at the step's partial product added to the zero block. -/
theorem kernelRun2_A (c : Dev nD) (i : grid2.Coords) (arg2 : Memref sig .tc .vmem S1x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S1x4096 .i32) (x1 : Vec F S4096x128 .bf16) (s o : Vec F S1024x128 .f32) : Spec2 c i arg2 harg2 arg3 harg3 arg4 harg4 arg5 harg5 x0 x1 s o (k2_pay2 i x0 x1 k2_pay1) o := by
  intro E K
  simp only [cc2__stage_b_kernel_eq_skeleton, owns_eq_unread (c : Thread nD τ) harg2, owns_eq_unread (c : Thread nD τ) harg3, owns_eq_unread (c : Thread nD τ) harg4]
  unfold cc2__stage_b_kernel_skel owns
  iintro ⟨H0, H1, H2, ⟨%fs0, -, HS0⟩, Hk⟩
  sl_exec (disch := first | exact hc0 | exact hc1)
  sl_step
  iapply Hk
  iframe H0 H1 H2
  iexists _; isplitr; swap; · iexact HS0
  ipureintro; sl_unfold_words
  rw [read_store S1024x128 hz2, View.readCov_unit_zero (S := S1024x128) _ hz2, readAt_whole harg2 hz2, readAt_whole harg3 hz2]

end Cert.Kernel.Hand

end
-- ==== Proof.K.Reg2RunB.lean ====
import proofs.«418018_j53446573032075_1_alg».proof.Proof.K.Reg2RunA

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Kernel Cert.Kernel.Gen

variable {F : FTy → Type} [FloatOps F]

local notation "𝕄" => MT nD τ sig Unit (Elt F) ℕ (UR sig nD τ) ℕ

/-- Strictly between the ends the body adds the step's partial product to the sum it finds in the scratch. -/
theorem kernelRun2_B (c : Dev nD) (i : grid2.Coords) (arg2 : Memref sig .tc .vmem S1x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S1x4096 .i32) (x1 : Vec F S4096x128 .bf16) (s o : Vec F S1024x128 .f32) : Spec2 c i arg2 harg2 arg3 harg3 arg4 harg4 arg5 harg5 x0 x1 s o (k2_pay2 i x0 x1 s) o := by
  intro E K
  simp only [cc2__stage_b_kernel_eq_skeleton, owns_eq_unread (c : Thread nD τ) harg2, owns_eq_unread (c : Thread nD τ) harg3, owns_eq_unread (c : Thread nD τ) harg4]
  unfold cc2__stage_b_kernel_skel owns
  iintro ⟨H0, H1, H2, ⟨%fs0, %hfs0, HS0⟩, Hk⟩
  obtain rfl := harg5.eq_unread hfs0
  sl_exec (disch := first | exact hc0 | exact hc1)
  sl_step
  iapply Hk
  iframe H0 H1 H2
  iexists _; isplitr; swap; · iexact HS0
  ipureintro
  rw [read_store S1024x128 hz2, readAt_whole harg2 hz2, readAt_whole harg3 hz2, readAt_whole harg5 hz2]

end Cert.Kernel.Hand

end
-- ==== Proof.K.Reg2RunC.lean ====
import proofs.«418018_j53446573032075_1_alg».proof.Proof.K.Reg2RunB

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Kernel Cert.Kernel.Gen

variable {F : FTy → Type} [FloatOps F]

local notation "𝕄" => MT nD τ sig Unit (Elt F) ℕ (UR sig nD τ) ℕ

/-- At inner coordinate 390 it does the same and then copies the finished sum into the output block. -/
theorem kernelRun2_C (c : Dev nD) (i : grid2.Coords) (arg2 : Memref sig .tc .vmem S1x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S1x4096 .i32) (x1 : Vec F S4096x128 .bf16) (s o : Vec F S1024x128 .f32) : Spec2 c i arg2 harg2 arg3 harg3 arg4 harg4 arg5 harg5 x0 x1 s o (k2_pay2 i x0 x1 s) (k2_pay2 i x0 x1 s) := by
  intro E K
  simp only [cc2__stage_b_kernel_eq_skeleton, owns_eq_unread (c : Thread nD τ) harg2, owns_eq_unread (c : Thread nD τ) harg3]
  unfold cc2__stage_b_kernel_skel owns
  iintro ⟨H0, H1, ⟨%f2, -, H2⟩, ⟨%fs0, %hfs0, HS0⟩, Hk⟩
  obtain rfl := harg5.eq_unread hfs0
  sl_exec (disch := first | exact hc0 | exact hc1)
  sl_step
  iapply Hk
  iframe H0 H1
  isplitl [H2]
  · iexists _; isplitr; swap; · iexact H2
    ipureintro; sl_unfold_words
    rw [read_store S1024x128 hz2, View.readCov_unit_zero (S := S1024x128) _ hz2, readAt_whole harg2 hz2, readAt_whole harg3 hz2, readAt_whole harg5 hz2]
  iexists _; isplitr; swap; · iexact HS0
  ipureintro; sl_unfold_words
  rw [read_store S1024x128 hz2, readAt_whole harg2 hz2, readAt_whole harg3 hz2, readAt_whole harg5 hz2]

end Cert.Kernel.Hand

end
-- ==== Proof.K.Reg2.lean ====
import proofs.«418018_j53446573032075_1_alg».proof.Proof.K.Reg2RunC
import proofs.«418018_j53446573032075_1_alg».proof.Proof.K.Sched

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

theorem hcond2_0 (t : Fin cfg2.N) : cond2_0 (grid2.coords t) ↔ t.val % 391 = 0 := by
  rw [cond2_0_iff, coords2_1]
theorem hcond2_1 (t : Fin cfg2.N) : cond2_1 (grid2.coords t) ↔ t.val % 391 = 390 := by
  rw [cond2_1_iff, coords2_1]

/-- The running sum of the row block after the body at position `n`: the step's partial product added to the zero
    block at a first step, else to the sum the position before left. -/
def sc2 (c : Dev nD) : (n : ℕ) → n < cfg2.N → Vec F S1024x128 .f32
  | 0, h => k2_pay2 (grid2.coords ⟨0, h⟩) (iblk2 V c 0 ⟨0, h⟩) (iblk2 V c 1 ⟨0, h⟩) k2_pay1
  | n + 1, h => k2_pay2 (grid2.coords ⟨n + 1, h⟩) (iblk2 V c 0 ⟨n + 1, h⟩) (iblk2 V c 1 ⟨n + 1, h⟩)
      (if (n + 1) % 391 = 0 then k2_pay1 else sc2 c n (Nat.lt_of_succ_lt h))

/-- (The output buffer, the scratch) after position `n`: the output buffer is consulted at last steps only, where it holds the sum too. -/
def outsAt2 (c : Dev nD) (n : ℕ) (h : n < cfg2.N) : Vec F S1024x128 .f32 × Vec F S1024x128 .f32 := (sc2 V c n h, sc2 V c n h)

theorem sc2_first (c : Dev nD) (t : Fin cfg2.N) (h : t.val % 391 = 0) :
    (outsAt2 V c t.val t.isLt).2 = k2_pay2 (grid2.coords t) (iblk2 V c 0 t) (iblk2 V c 1 t) (k2_pay1 (F := F)) := by
  obtain ⟨_ | n, hn⟩ := t
  · rfl
  · exact congrArg (k2_pay2 _ _ _) (if_pos h)

theorem sc2_next (c : Dev nD) (t : Fin cfg2.N) (h : t.val % 391 ≠ 0) :
    (outsAt2 V c t.val t.isLt).2 = k2_pay2 (grid2.coords t) (iblk2 V c 0 t) (iblk2 V c 1 t) (outsAt2 V c (t.val - 1) (Nat.lt_of_le_of_lt (Nat.sub_le _ _) t.isLt)).2 := by
  obtain ⟨_ | n, hn⟩ := t
  · exact absurd (Nat.zero_mod _) h
  · exact congrArg (k2_pay2 _ _ _) (if_neg h)

theorem out2_last (c : Dev nD) (t : Fin cfg2.N) (h : t.val % 391 = 390) :
    (outsAt2 V c t.val t.isLt).1 = (outsAt2 V c t.val t.isLt).2 := rfl

/-- Before position `n`: the scratch at some contents (at what the position before left, unless `n` begins a row block),
    the other scoped buffers unopened, the pseudo-random number register at some state. -/
def PhiS2 (c : Dev nD) (n : ℕ) (hn : n ≤ cfg2.N) : sProp 𝕄 :=
  iprop(iprop((∃ s, ⌜∀ h : n % 391 ≠ 0, s = (outsAt2 V c (n - 1) (by omega)).2⌝ ∗ owns (c : Thread nD τ) scM2_0 fullShare s) ∗ others2 (F := F) c) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_2 (c : Dev nD) (t : Fin cfg2.N) : (dat2 V c).after 2 t = (outsAt2 V c t.val t.isLt).1 := rfl
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

/-- The body at point `t`, from the scratch at `s` (the sum so far, unless `t` begins a row block): it leaves there this
    point's sum, and at inner coordinate 390 in the output block too. -/
theorem run2 (c : Dev nD) (t : Fin cfg2.N) (s d2 : Vec F S1024x128 .f32)
    (hs : t.val % 391 ≠ 0 → s = (outsAt2 V c (t.val - 1) (Nat.lt_of_le_of_lt (Nat.sub_le _ _) t.isLt)).2) :
    Spec2 c (grid2.coords t) (ms2_0 t) (hs2_0 t) (ms2_1 t) (hs2_1 t) (ms2_2 t) (hs2_2 t) scM2_0 (Memref.isWhole_whole _) (iblk2 V c 0 t) (iblk2 V c 1 t)
      s d2 (outsAt2 V c t.val t.isLt).2 (if t.val % 391 = 390 then (outsAt2 V c t.val t.isLt).2 else d2) := by
  by_cases h0 : t.val % 391 = 0
  · have h1 : ¬t.val % 391 = 390 := by omega
    rw [if_neg h1, sc2_first V c t h0]
    exact kernelRun2_A c _ _ _ _ _ _ _ _ _ ((hcond2_0 t).mpr h0) (mt (hcond2_1 t).mp h1) _ _ s d2
  · rw [sc2_next V c t h0, ← hs h0]
    by_cases h1 : t.val % 391 = 390
    · rw [if_pos h1]
      exact kernelRun2_C c _ _ _ _ _ _ _ _ _ (mt (hcond2_0 t).mp h0) ((hcond2_1 t).mpr h1) _ _ s d2
    · rw [if_neg h1]
      exact kernelRun2_B c _ _ _ _ _ _ _ _ _ (mt (hcond2_0 t).mp h0) (mt (hcond2_1 t).mp h1) _ _ s d2

/-- At inner coordinate 390 the output block is left at the sum; elsewhere it is as the body found it. -/
theorem leaves2_2 (c : Dev nD) (t : Fin cfg2.N) (d) :
    owns (c : Thread nD τ) (ms2_2 t) fullShare (if t.val % 391 = 390 then (outsAt2 V c t.val t.isLt).2 else (dat2 V c).before 2 t d)
      ⊢ (dat2 V c).leavesExact 2 t := by
  by_cases h1 : t.val % 391 = 390
  · rw [if_pos h1, show (dat2 V c).leavesExact 2 t = owns (c : Thread nD τ) (ms2_2 t) fullShare (outsAt2 V c t.val t.isLt).2 from by
      unfold Dat.leavesExact; rw [liveAt2_2 t ((hcond2_1 t).mpr h1)]; rfl]
  · rw [if_neg h1, Dat.leavesExact_idle (dat2 V c) 2 t (idleAt2_2 t (mt (hcond2_1 t).mp h1)) (Bool.eq_false_iff.mpr (mt (flush2_2_iff t).mp h1))]
    iintro H; iexists d; iexact H

/-- The body at any point: the invariant hands it the scratch and takes it back at this point's sum. -/
theorem sound_body2 (c : Dev nD) (t : Fin cfg2.N) :
    iprop(PhiS2 V c t.val (Nat.le_of_lt t.isLt) ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame (wpE (defs₀ (F := F)) Variants.none c none) Set.univ (bodyAt2 t) (fun _ =>
      iprop(PhiS2 V c (t.val + 1) t.isLt ∗ (dat2 V c).owesAt () t.castSucc ∗ owns (c : Thread nD τ) (ms2_0 t) fullShare (iblk2 V c 0 t) ∗ owns (c : Thread nD τ) (ms2_1 t) fullShare (iblk2 V c 1 t) ∗ (dat2 V c).leavesExact 2 t)) := by
  simp only [before2_0, before2_1]
  unfold PhiS2
  iintro ⟨⟨⟨⟨%s, %hs, HS⟩, Hr⟩, Hg⟩, Ho, ⟨%d0, H0⟩, ⟨%d1, H1⟩, ⟨%d2, H2⟩⟩
  iapply run2 V c t s ((dat2 V c).before 2 t d2) hs Set.univ
  iframe H0 H1 H2 HS
  iintro ⟨H0, H1, H2, HS⟩
  iframe Hr Hg Ho H0 H1
  isplitl [HS]
  · iexists _; isplitr; swap; · iexact HS
    ipureintro; exact fun _ => rfl
  iapply leaves2_2 V c t d2; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = PhiS2 V c 0 (Nat.zero_le _) from rfl, PhiA2_eq]; unfold PhiS2
  iintro ⟨⟨⟨%d, H⟩, Ho⟩, Hg⟩
  iframe Ho Hg
  iexists d; isplitr; · ipureintro; exact fun h => absurd (Nat.zero_mod _) h
  iexact H

/-- After the last point the invariant gives the entry invariant back: what the scratch holds is forgotten. -/
theorem hout2 (c : Dev nD) : (dat2 V c).Φ (Fin.last cfg2.N) ⊢ (Pipeline.ΦA spec2 c : sProp 𝕄) := by
  rw [show (dat2 V c).Φ (Fin.last cfg2.N) = PhiS2 V c cfg2.N (Nat.le_refl _) from rfl, PhiA2_eq]; unfold PhiS2
  iintro ⟨⟨⟨%s, -, H⟩, Ho⟩, Hg⟩
  iframe Ho Hg
  iexists s; iexact H

end Cert.Kernel.Hand

end
-- ==== Proof.K.Run.lean ====
import proofs.«418018_j53446573032075_1_alg».proof.Proof.K.Reg0
import proofs.«418018_j53446573032075_1_alg».proof.Proof.K.Reg1
import proofs.«418018_j53446573032075_1_alg».proof.Proof.K.Reg2
import proofs.«418018_j53446573032075_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

abbrev E0 : (c : Dev nD) → (b : Ref sig .tc) → Buf (Elt F) ((c : Thread nD τ).loc b) := fun c b => V0 m c b
def res0 (c : Dev nD) : Buf (Elt F) ((c : Thread nD τ).loc main_v0) := (dat0 (E0 m) c).arrAt 2 cfg0.N
def oA : Outs (F := F) := fun _ r c => if h : r = main_v0 then h ▸ res0 m c else m ((c : Thread nD τ).loc r)
abbrev E1 : (c : Dev nD) → (b : Ref sig .tc) → Buf (Elt F) ((c : Thread nD τ).loc b) := fun c b => V9 m (oA m) c b
def res1 (c : Dev nD) : Buf (Elt F) ((c : Thread nD τ).loc main_v8) := (dat1 (E1 m) c).arrAt 3 cfg1.N
def oB : Outs (F := F) := fun _ r c =>
  if h : r = main_v0 then h ▸ res0 m c else if h : r = main_v8 then h ▸ res1 m c else m ((c : Thread nD τ).loc r)
abbrev E2 : (c : Dev nD) → (b : Ref sig .tc) → Buf (Elt F) ((c : Thread nD τ).loc b) := fun c b => V10 m (oB m) c b
def res2 (c : Dev nD) : Buf (Elt F) ((c : Thread nD τ).loc main_v9) := (dat2 (E2 m) c).arrAt 2 cfg2.N
def oC : Outs (F := F) := fun _ r c =>
  if h : r = main_v0 then h ▸ res0 m c else if h : r = main_v8 then h ▸ res1 m c
  else if h : r = main_v9 then h ▸ res2 m c else m ((c : Thread nD τ).loc r)

theorem oA_v0 (J : ℕ) (c : Dev nD) : oA m J main_v0 c = res0 m c := dif_pos rfl
theorem oB_v0 (J : ℕ) (c : Dev nD) : oB m J main_v0 c = res0 m c := dif_pos rfl
theorem oB_v8 (J : ℕ) (c : Dev nD) : oB m J main_v8 c = res1 m c := (dif_neg (by decide)).trans (dif_pos rfl)
theorem oC_v0 (J : ℕ) (c : Dev nD) : oC m J main_v0 c = res0 m c := dif_pos rfl
theorem oC_v8 (J : ℕ) (c : Dev nD) : oC m J main_v8 c = res1 m c := (dif_neg (by decide)).trans (dif_pos rfl)
theorem oC_v9 (J : ℕ) (c : Dev nD) : oC m J main_v9 c = res2 m c :=
  (dif_neg (by decide)).trans ((dif_neg (by decide)).trans (dif_pos rfl))

-- The host stretches before the second pass read, of the passes' results, only the first's.
theorem V9_oC (c : Dev nD) : V9 m (oC m) c = V9 m (oA m) c := by
  simp only [V9, V8, V7, V6, V5, V4, V3, V2, V1, oC_v0, oA_v0]
theorem V9_oB (c : Dev nD) : V9 m (oB m) c = V9 m (oA m) c := by
  simp only [V9, V8, V7, V6, V5, V4, V3, V2, V1, oB_v0, oA_v0]
theorem V10_oC (c : Dev nD) : V10 m (oC m) c = V10 m (oB m) c := by
  show Function.update (V9 m (oC m) c) _ (oC m 10 main_v8 c) = Function.update (V9 m (oB m) c) _ (oB m 10 main_v8 c)
  rw [V9_oC, V9_oB, oC_v8, oB_v8]

def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

theorem pdats_plain (p : Fin 3) (c : Dev nD) : (∀ w, (pdats m p c).q w = fullShare) ∧ ∀ t, (pdats m p c).owed t = 0 ∧ (pdats m p c).recorded t = Set.univ :=
  match p with
  | ⟨0, _⟩ | ⟨1, _⟩ | ⟨2, _⟩ => ⟨fun _ => rfl, fun _ => ⟨rfl, rfl⟩⟩

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev stateAt (V : Valuation τ sig (Elt F)) (c : Dev nD) : sProp 𝕄 := iprop(StableHlo.held (c : Thread nD τ) (Pipeline.ucRefs τ sig) V ∗ R c)

theorem not_mem_arr {gr W : ℕ} {win : Fin W → Pipeline.WinSpec sig gr} {b : Ref sig .tc}
    (hb : b ∉ Finset.univ.image (Pipeline.arrRef win)) (w : Fin W) : b ∉ [Pipeline.arrRef win w] :=
  fun h => hb (Finset.mem_image.mpr ⟨w, Finset.mem_univ _, (List.mem_singleton.mp h).symm⟩)

-- A pass as an item of the run, from contents `V` to `V'`: `V'` differs from `V` only at the output array, where it is the pass's result.
def regOf {p : Fin 3} (lf : Pipeline.LaunchFacts (nD := nD) (τ := τ) cfgs p) (V V' : (c : Dev nD) → Valuation τ sig (Elt F))
    (hb : ∀ c, BodyObligation (pdats m p c) (defs₀ (F := F)) Variants.none () Set.univ)
    (hA : ∀ c w, (pdats m p c).A w = V c (Pipeline.arrRef (cfgs p).spec w))
    (hi : ∀ c, Pipeline.ΦA (cfgs p).spec c ⊢ (pdats m p c).Φ 0)
    (ho : ∀ c, (pdats m p c).Φ (Fin.last (cfgs p).N) ⊢ Pipeline.ΦA (cfgs p).spec c)
    (wo : Fin (cfgs p).W) (hio : ∀ w, w ≠ wo → ((cfgs p).win w).isOut = false)
    (hne : ∀ c (b : Ref sig .tc), b ∉ [Pipeline.arrRef (cfgs p).spec wo] → V' c b = V c b)
    (hwo : ∀ c, (pdats m p c).arrAt wo (cfgs p).N = V' c (Pipeline.arrRef (cfgs p).spec wo)) :
    RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c t => ((pdats_plain m p c).2 t).1
  pre c := stateAt (V c) c
  post c := stateAt (V' c) c
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    have hsplit := Pipeline.arrays_of_unscopedBufs pcfgs adm (pdats m) lf.win lf.arr_whole c
      ((pdats m p c).share_full (pdats_plain m p c).1) (fun b => V c b) (hA c)
    rw [Pipeline.unscopedBufs_held] at hsplit
    unfold Pipeline.Dat.owesAt Pipeline.owesWithin Pipeline.Dat.bound
    rw [Pipeline.ownSems0_none, ((pdats_plain m p c).2 0).1, ((pdats_plain m p c).2 0).2]
    iintro ⟨⟨Hub, Hp, %W, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    iexists W; iframe HO
    ipureintro; exact fun _ _ => Or.inl trivial
  hin c := by
    refine .trans ?_ (hi c)
    unfold Pipeline.ΦA
    iintro ⟨Hp, -, Hr⟩
    iframe Hr Hp
  hout c := by
    rw [Pipeline.ownSems0_none]
    refine (ho c).trans ?_
    unfold Pipeline.ΦA
    iintro ⟨Hr, Hp⟩
    iframe Hp Hr
    iempintro
  hexit c := by
    have hjoin := Pipeline.unscopedBufs_of_arrays pcfgs adm (Ix := Unit) (Name := ℕ) (U := UR sig nD τ) (Lvl := ℕ)
      lf.win lf.arr_whole c (pdats m) ((pdats m p c).share_full (pdats_plain m p c).1)
      (fun b => V c b) (fun b => V' c b) ((pdats m p c).arrAt · (cfgs p).N)
      (fun w => by
        by_cases h : w = wo
        · subst h; exact hwo c
        · exact ((pdats m p c).arrAt_in w (hio w h) _).trans
            ((hA c w).trans (hne c _ fun hm => h (lf.win.arr_inj (List.mem_singleton.mp hm))).symm))
      fun b hb => hne c b (not_mem_arr hb wo)
    rw [Pipeline.unscopedBufs_held] at hjoin
    unfold Pipeline.Dat.owesAt Pipeline.owesWithin
    rw [((pdats_plain m p c).2 _).1]
    iintro ⟨Ha, ⟨%W, -, HO⟩, HY, Hrest⟩
    imodintro
    isplitl [Ha Hrest]
    · iapply hjoin; iframe Ha Hrest
    isplitl [HY]; · iexact HY
    iexists W; iexact HO

theorem upd_out {r : Ref sig .tc} {c : Dev nD} (V : Valuation τ sig (Elt F)) {x y : Buf (Elt F) ((c : Thread nD τ).loc r)} (h : x = y) :
    y = Function.update V r x r := by rw [Function.update_self, h]

def reg0 : RegionSeg (pcfgs (F := F)) adm (pdats m) () defs₀ Variants.none L lv 0 :=
  regOf m launch0 (V0 m) (fun c => V1 m (oC m) c) (body_obligation0 (E0 m)) (fun _ _ => rfl) (fun _ => .rfl) (fun _ => .rfl)
    (2 : Fin 3) (by decide) (fun c b => V1_of m (oC m) c b) fun c => upd_out _ (oC_v0 m 1 c)

def reg1 : RegionSeg (pcfgs (F := F)) adm (pdats m) () defs₀ Variants.none L lv 1 :=
  regOf m launch1 (fun c => V9 m (oA m) c) (fun c => V10 m (oC m) c) (body_obligation1 (E1 m)) (fun _ _ => rfl) (hin1 (E1 m)) (hout1 (E1 m))
    (3 : Fin 4) (by decide) (fun c b h => (V10_of m (oC m) c b h).trans (congrFun (V9_oC m c) b)) fun c => upd_out _ (oC_v8 m 10 c)

def reg2 : RegionSeg (pcfgs (F := F)) adm (pdats m) () defs₀ Variants.none L lv 2 :=
  regOf m launch2 (fun c => V10 m (oB m) c) (fun c => V11 m (oC m) c) (body_obligation2 (E2 m)) (fun _ _ => rfl) (hin2 (E2 m)) (hout2 (E2 m))
    (2 : Fin 3) (by decide) (fun c b h => (V11_of m (oC m) c b h).trans (congrFun (V10_oC m c) b)) fun c => upd_out _ (oC_v9 m 11 c)

theorem hpre1 (c : Dev nD) : stateAt (V9 m (oC m) c) c ⊢ stateAt (F := F) (V9 m (oA m) c) c := by rw [V9_oC m c]
theorem hpre2 (c : Dev nD) : stateAt (V10 m (oC m) c) c ⊢ stateAt (F := F) (V10 m (oB m) c) c := by rw [V10_oC m c]

abbrev launchU : UR sig nD τ := initOf (Pipeline.cells cfgs cellOf_inj) (Pipeline.launchToks cfgs cellOf_inj)

theorem hu0 : (ownU launchU : sProp 𝕄) ⊢ |={Set.univ}=> iprop(BI.own (emb₁ launchU) ∗ bigSep Finset.univ fun _ : Dev nD => (BI.emp : sProp 𝕄)) := by
  rw [BI.bigSep_emp_const]
  iintro Hu; imodintro
  isplitl [Hu]
  · iapply (show (ownU launchU : sProp 𝕄) ⊢ BI.own (emb₁ launchU) from .rfl)
    iexact Hu
  iempintro

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = V12 m (oC m) c b) := by
  refine Pipeline.θ_run_regions_kit_dev (pcfgs (F := F)) adm (pdats m) () cellOf_inj (emb₁ (A := UR sig nD τ)) defs₀ Variants.none L lv m ρ main
    (segs m (oC m) Variants.none L lv (fun _ c => R c) () (pdats m) (reg0 m) (reg1 m) (reg2 m))
    (fun c Q => by rewrite [main_chain c, Seg.run_eq_chain]; exact .rfl)
    (fun c => by simp only [segs, Seg.pipes_host, Seg.pipes_region, Seg.pipes_nil]; decide) (0 : Dev nD → CellTallies nD τ sig Unit) (fun _ _ => rfl)
    (fun _ => (BI.emp : sProp 𝕄)) launchU hu0
    (T₀ := fun c => stateAt (V0 m c) c)
    (Tₙ := fun c => StableHlo.held (c : Thread nD τ) (Pipeline.ucRefs τ sig) (V12 m (oC m) c))
    (hch := fun c => ⟨.rfl, .rfl, .rfl, .rfl, .rfl, .rfl, .rfl, .rfl, .rfl, hpre1 m c, hpre2 m c, .rfl, sep_mono .rfl (by iintro ⟨-, H⟩; iexact H)⟩)
    (hinit := Pipeline.initEach L lv fun c => ?_)
    (QY := fun c s => ∀ b ∈ Pipeline.ucRefs τ sig, s.mem (((c : Thread nD τ)).1, b) = V12 m (oC m) c b)
    (hfin := fun c s' => ?_) (hQ := fun _ h => h)
  · rw [stateAt, ← Pipeline.unscopedBufs_held (Ix := Unit) (Name := ℕ) (U := UR sig nD τ) (Lvl := ℕ) c (V0 m c)]
    iintro ⟨⟨Hb, -, HO, -, Hp, -⟩, -⟩
    imodintro
    iframe Hb
    isplitl [Hp] <;> iexists _ <;> iassumption
  · unfold StableHlo.held
    iintro ⟨Hh, HSI⟩
    imodintro
    iapply (pointsTo_read_all (Pipeline.ucRefs τ sig) (fun b => ((c : Thread nD τ).1, b)) (V12 m (oC m) c) s')
    isplitl [Hh] <;> iassumption

-- The frame claim reads the five arguments off the run's last contents, which no item writes.
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c _ (mem_uc main_arg0 (by decide))).trans (V12_main_arg0 m _ c),
    (h c _ (mem_uc main_arg1 (by decide))).trans (V12_main_arg1 m _ c), (h c _ (mem_uc main_arg2 (by decide))).trans (V12_main_arg2 m _ c),
    (h c _ (mem_uc main_arg3 (by decide))).trans (V12_main_arg3 m _ c), (h c _ (mem_uc main_arg4 (by decide))).trans (V12_main_arg4 m _ c)⟩)
    (run_all m ρ)

end Cert.Kernel.Hand

end
-- ==== Proof.KI.Sched.lean ====
import proofs.«418018_j53446573032075_1_alg».proof.Proof.Gen.KernelIdeal.Launch
import Idealize.ShloMosaic.Lib.Pipeline.Kit

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev bodyAt0 (t : Fin cfg0.N) : Prog (TpuEff nD τ sig (Elt F) Λ₀ .tc) PUnit :=
  cc0__dense_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
abbrev bodyAt1 (t : Fin cfg1.N) : Prog (TpuEff nD τ sig (Elt F) Λ₀ .tc) PUnit :=
  cc1__stage_a_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)
abbrev bodyAt2 (t : Fin cfg2.N) : Prog (TpuEff nD τ sig (Elt F) Λ₀ .tc) PUnit :=
  cc2__stage_b_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (Memref.whole cc2_scratch0) (Memref.isWhole_whole _)

theorem lt1 (t : Fin cfg1.N) : t.val < 38318 := lt_of_lt_of_eq t.isLt N_1
theorem lt2 (t : Fin cfg2.N) : t.val < 38318 := lt_of_lt_of_eq t.isLt N_2

-- A point `t` of a grid `(A, B)` has coordinates `(t / B, t % B)`.
theorem coords1_0 (t : Fin cfg1.N) : ((grid1.coords t) 0).val = t.val / 98 := by
  have h := lt1 t
  show t.val / 98 % 391 = t.val / 98
  omega
theorem coords1_1 (t : Fin cfg1.N) : ((grid1.coords t) 1).val = t.val % 98 := by
  show t.val / 1 % 98 = t.val % 98
  rw [Nat.div_one]
theorem coords2_0 (t : Fin cfg2.N) : ((grid2.coords t) 0).val = t.val / 391 := by
  have h := lt2 t
  show t.val / 391 % 98 = t.val / 391
  omega
theorem coords2_1 (t : Fin cfg2.N) : ((grid2.coords t) 1).val = t.val % 391 := by
  show t.val / 1 % 391 = t.val % 391
  rw [Nat.div_one]

theorem index1_3 (t : Fin cfg1.N) : win1_3.index t = ![t.val / 98, 0] := by
  show ![(BitVec.ofNat 32 _).toNat, 0] = _
  rw [BitVec.toNat_ofNat, coords1_0, Nat.mod_eq_of_lt (by have := lt1 t; omega)]
theorem index2_2 (t : Fin cfg2.N) : win2_2.index t = ![t.val / 391, 0] := by
  show ![(BitVec.ofNat 32 _).toNat, 0] = _
  rw [BitVec.toNat_ofNat, coords2_0, Nat.mod_eq_of_lt (by have := lt2 t; omega)]

-- The block index changes exactly where the quotient `t / B` does.
theorem flush_iff_div {G : Pipeline.Grid} (w : Pipeline.Window sig G) (B : ℕ) (ho : w.isOut = true) (f : ℕ → Fin w.shape.rank → ℕ)
    (hf : f.Injective) (hi : ∀ t, w.index t = f (t.val / B)) (t : Fin G.N) :
    w.flush t = true ↔ t.val + 1 = G.N ∨ ∃ _ : t.val + 1 < G.N, (t.val + 1) / B ≠ t.val / B := by
  unfold Pipeline.Window.flush
  rw [ho, Bool.true_and, Bool.or_eq_true, decide_eq_true_eq, decide_eq_true_eq]
  simp only [hi, hf.ne_iff]

theorem flush1_3_iff (t : Fin cfg1.N) : (cfg1.win 3).flush t = true ↔ t.val % 98 = 97 :=
  (flush_iff_div win1_3 98 rfl (![·, 0]) (fun _ _ h => congrFun h 0) index1_3 t).trans (by
    have h := lt1 t; have hN : grid1.N = 38318 := N_1; simp only [exists_prop]; omega)
theorem flush2_2_iff (t : Fin cfg2.N) : (cfg2.win 2).flush t = true ↔ t.val % 391 = 390 :=
  (flush_iff_div win2_2 391 rfl (![·, 0]) (fun _ _ h => congrFun h 0) index2_2 t).trans (by
    have h := lt2 t; have hN : grid2.N = 38318 := N_2; simp only [exists_prop]; omega)

theorem flush0_2 : ∀ t : Fin cfg0.N, (cfg0.win 2).flush t = true :=
  (by decide +kernel : ∀ t : Fin grid0.N, win0_2.flush t = true)

end Cert.KernelIdeal.Hand

end
-- ==== Proof.KI.Reg0.lean ====
import proofs.«418018_j53446573032075_1_alg».proof.Proof.Gen.KernelIdeal.Launch
import proofs.«418018_j53446573032075_1_alg».proof.Proof.Gen.KernelIdeal.Skeleton
import proofs.«418018_j53446573032075_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0

def out0_2 (x0 : Vec F S2000x128 .f32) (x1 : Vec F S128x128 .f32) : Vec F S2000x128 .f32 :=
  View.canon [⟨r0_x, k0_pay1 (View.ld x0 r0_x) (View.ld x1 r0_w)⟩]

theorem sound_kernel0 (c : Dev nD) (E : Set ℕ) (i : grid0.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe H0; ipureintro; rfl
  isplitl [H1]; · iexists f1; iframe H1; ipureintro; rfl
  iexists _; iframe H2; ipureintro
  exact View.read_writes_eq_canon _ _ _ (View.cover_of_tiled _ S2000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl
theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = out0_2 (iblk0 V c 0 t) (iblk0 V c 1 t) := by dsimp only [dat0]

theorem before0_in {c : Dev nD} (dat : Dat τ (Elt F) Unit ℕ (UR sig nD τ) ℕ cfg0 c) (hA : ∀ w, dat.A w = V c (Pipeline.arrRef spec0 w))
    (h0 : ∀ t, dat.after 0 t = iblk0 V c 0 t) (h1 : ∀ t, dat.after 1 t = iblk0 V c 1 t) (t : Fin cfg0.N) :
    (∀ d, dat.before 0 t d = iblk0 V c 0 t) ∧ ∀ d, dat.before 1 t d = iblk0 V c 1 t := by
  constructor <;> exact fun d => (dat.before_in_eq_fetched _ rfl (fun _ => rfl) (fun _ _ _ => rfl)
    (fun t => by simp only [h0, h1]; unfold Dat.blockOf iblk0; rw [hA]; try rfl) t d).trans
    (by unfold Dat.fetched Dat.blockOf iblk0; rw [hA]; try rfl)

-- The body's triple at the inputs' blocks; the rest passes through.
theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) fun _ =>
      iprop((dat0 V c).Φ t.castSucc ∗ (dat0 V c).owesAt () t.castSucc
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t))
  have hb := before0_in V (dat0 V c) (A_eq0 V c) (after0_0 V c) (after0_1 V c) t
  simp only [hb.1, hb.2]
  rw [after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ Ho H0 H1 H2

end Cert.KernelIdeal.Hand

end
-- ==== Proof.KI.Reg1Base.lean ====
import proofs.«418018_j53446573032075_1_alg».proof.Proof.Gen.KernelIdeal.Launch
import proofs.«418018_j53446573032075_1_alg».proof.Proof.Gen.KernelIdeal.Skeleton
import proofs.«418018_j53446573032075_1_alg».proof.Proof.LibOwn
import proofs.«418018_j53446573032075_1_alg».proof.Proof.KI.Sched
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The body's two tests on the inner coordinate: is it 0, is it 97.
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

theorem hcond1_0 (t : Fin cfg1.N) : cond1_0 (grid1.coords t) ↔ t.val % 98 = 0 :=
  ((by decide +kernel : ∀ k : Fin 98, ((Scalar.cmpi .ne (Scalar.extui (Scalar.cmpi .eq (BitVec.ofNat 32 k.val) 0#32)) 0#32) = 1#1) ↔ k.val = 0)
    ((grid1.coords t) 1)).trans (by rw [coords1_1])
theorem hcond1_1 (t : Fin cfg1.N) : cond1_1 (grid1.coords t) ↔ t.val % 98 = 97 :=
  ((by decide +kernel : ∀ k : Fin 98, ((Scalar.cmpi .ne (Scalar.extui (Scalar.cmpi .eq (BitVec.ofNat 32 k.val) 97#32)) 0#32) = 1#1) ↔ k.val = 97)
    ((grid1.coords t) 1)).trans (by rw [coords1_1])

theorem idleAt1_3 (t : Fin cfg1.N) (h : ¬cond1_1 (grid1.coords t)) : cfg1.idle 3 (grid1.coords t) = true := by
  show (!(k1_cond2 (grid1.coords t) == 1#1)) = true
  rw [Bool.not_eq_true', beq_eq_false_iff_ne]; exact h
theorem liveAt1_3 (t : Fin cfg1.N) (h : cond1_1 (grid1.coords t)) : cfg1.idle 3 (grid1.coords t) = false := by
  show (!(k1_cond2 (grid1.coords t) == 1#1)) = false
  rw [Bool.not_eq_false', beq_iff_eq]; exact h

abbrev ms1_0 (t : Fin cfg1.N) : Memref sig .tc .vmem S1x4096 .i32 := win1_0.stage (cfg1.slots t 0)
abbrev ms1_1 (t : Fin cfg1.N) : Memref sig .tc .vmem S1x4096 .f32 := win1_1.stage (cfg1.slots t 1)
abbrev ms1_2 (t : Fin cfg1.N) : Memref sig .tc .vmem S1024x128 .f32 := win1_2.stage (cfg1.slots t 2)
abbrev ms1_3 (t : Fin cfg1.N) : Memref sig .tc .vmem S4096x128 .bf16 := win1_3.stage (cfg1.slots t 3)
abbrev scM1_0 : Memref sig .tc .vmem S4096x128 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

-- The class invariant with the accumulator singled out at some contents.
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA
  rw [Pipeline.scopedRest_split_of_list spec1 c [cc1_scratch0] (by decide) (by decide)]
  simp only [scM1_0, owns_whole]; rfl

end Cert.KernelIdeal.Hand

end
-- ==== Proof.KI.Reg1Run.lean ====
import proofs.«418018_j53446573032075_1_alg».proof.Proof.KI.Reg1Base

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (c : Dev nD) (i : grid1.Coords) (arg2 : Memref sig .tc .vmem S1x4096 .i32) (harg2 : arg2.IsWhole) (arg3 : Memref sig .tc .vmem S1x4096 .f32) (harg3 : arg3.IsWhole) (arg4 : Memref sig .tc .vmem S1024x128 .f32) (harg4 : arg4.IsWhole) (arg5 : Memref sig .tc .vmem S4096x128 .bf16) (harg5 : arg5.IsWhole) (arg6 : Memref sig .tc .vmem S4096x128 .f32) (harg6 : arg6.IsWhole)
  (x0 : Vec F S1x4096 .i32) (x1 : Vec F S1x4096 .f32) (x2 : Vec F S1024x128 .f32)

-- The body's triple on whole memrefs: inputs handed back as found, the output block from `o` to `o'`, the accumulator from `s` to `s'`.
def Spec1 (o o' : Vec F S4096x128 .bf16) (s s' : Vec F S4096x128 .f32) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare o ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare o' ∗ owns (c : Thread nD τ) arg6 fullShare s') -∗ K ⟨⟩))
      ⊢ wp frame (wpE (defs₀ (F := F)) Variants.none c none) E (cc1__stage_a_kernel i arg2 harg2 arg3 harg3 arg4 harg4 arg5 harg5 arg6 harg6) K

theorem run1_A (hc0 : cond1_0 i) (hc1 : ¬cond1_1 i) (o : Vec F S4096x128 .bf16) (s : Vec F S4096x128 .f32) :
    Spec1 c i arg2 harg2 arg3 harg3 arg4 harg4 arg5 harg5 arg6 harg6 x0 x1 x2 o o s (k1_pay2 i x0 x1 x2 k1_pay1) := by
  intro E K
  simp only [cc1__stage_a_kernel_eq_skeleton, owns_eq_unread (c : Thread nD τ) harg2, owns_eq_unread (c : Thread nD τ) harg3, owns_eq_unread (c : Thread nD τ) harg4, owns_eq_unread (c : Thread nD τ) harg5]
  unfold cc1__stage_a_kernel_skel owns
  iintro ⟨H0, H1, H2, H3, ⟨%fs0, -, HS0⟩, Hk⟩
  sl_exec (disch := first | exact hc0 | exact hc1)
  sl_step
  iapply Hk
  iframe H0 H1 H2 H3
  iexists _; isplitr; swap; · iexact HS0
  ipureintro; sl_unfold_words
  rw [read_store S4096x128 hz2, View.readCov_unit_zero (S := S4096x128) _ hz2, readAt_whole harg2 hz2, readAt_whole harg3 hz2, readAt_whole harg4 hz2]

theorem run1_B (hc0 : ¬cond1_0 i) (hc1 : ¬cond1_1 i) (o : Vec F S4096x128 .bf16) (s : Vec F S4096x128 .f32) :
    Spec1 c i arg2 harg2 arg3 harg3 arg4 harg4 arg5 harg5 arg6 harg6 x0 x1 x2 o o s (k1_pay2 i x0 x1 x2 s) := by
  intro E K
  simp only [cc1__stage_a_kernel_eq_skeleton, owns_eq_unread (c : Thread nD τ) harg2, owns_eq_unread (c : Thread nD τ) harg3, owns_eq_unread (c : Thread nD τ) harg4, owns_eq_unread (c : Thread nD τ) harg5]
  unfold cc1__stage_a_kernel_skel owns
  iintro ⟨H0, H1, H2, H3, ⟨%fs0, %hfs0, HS0⟩, Hk⟩
  obtain rfl := harg6.eq_unread hfs0
  sl_exec (disch := first | exact hc0 | exact hc1)
  sl_step
  iapply Hk
  iframe H0 H1 H2 H3
  iexists _; isplitr; swap; · iexact HS0
  ipureintro; sl_unfold_words
  rw [read_store S4096x128 hz2, readAt_whole harg2 hz2, readAt_whole harg3 hz2, readAt_whole harg4 hz2, readAt_whole harg6 hz2]

theorem run1_C (hc0 : ¬cond1_0 i) (hc1 : cond1_1 i) (o : Vec F S4096x128 .bf16) (s : Vec F S4096x128 .f32) :
    Spec1 c i arg2 harg2 arg3 harg3 arg4 harg4 arg5 harg5 arg6 harg6 x0 x1 x2 o (k1_pay3 (k1_pay2 i x0 x1 x2 s)) s (k1_pay2 i x0 x1 x2 s) := by
  intro E K
  simp only [cc1__stage_a_kernel_eq_skeleton, owns_eq_unread (c : Thread nD τ) harg2, owns_eq_unread (c : Thread nD τ) harg3, owns_eq_unread (c : Thread nD τ) harg4]
  unfold cc1__stage_a_kernel_skel owns
  iintro ⟨H0, H1, H2, ⟨%f3, -, H3⟩, ⟨%fs0, %hfs0, HS0⟩, Hk⟩
  obtain rfl := harg6.eq_unread hfs0
  sl_exec (disch := first | exact hc0 | exact hc1)
  sl_step
  iapply Hk
  iframe H0 H1 H2
  isplitl [H3]
  · iexists _; isplitr; swap; · iexact H3
    ipureintro; sl_unfold_words
    rw [read_store S4096x128 hz2, View.readCov_unit_zero (S := S4096x128) _ hz2, readAt_whole harg2 hz2, readAt_whole harg3 hz2, readAt_whole harg4 hz2, readAt_whole harg6 hz2]
  iexists _; isplitr; swap; · iexact HS0
  ipureintro; sl_unfold_words
  rw [read_store S4096x128 hz2, readAt_whole harg2 hz2, readAt_whole harg3 hz2, readAt_whole harg4 hz2, readAt_whole harg6 hz2]

end Cert.KernelIdeal.Hand

end
-- ==== Proof.KI.Reg1.lean ====
import proofs.«418018_j53446573032075_1_alg».proof.Proof.KI.Reg1Run
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def accAt1 (c : Dev nD) : (n : ℕ) → n < cfg1.N → Vec F S4096x128 .f32
  | 0, hn => k1_pay2 (grid1.coords ⟨0, hn⟩) (iblk1 V c 0 ⟨0, hn⟩) (iblk1 V c 1 ⟨0, hn⟩) (iblk1 V c 2 ⟨0, hn⟩) k1_pay1
  | n + 1, hn => k1_pay2 (grid1.coords ⟨n + 1, hn⟩) (iblk1 V c 0 ⟨n + 1, hn⟩) (iblk1 V c 1 ⟨n + 1, hn⟩) (iblk1 V c 2 ⟨n + 1, hn⟩)
      (if (n + 1) % 98 = 0 then k1_pay1 else accAt1 c n (Nat.lt_of_succ_lt hn))

def outsAt1 (c : Dev nD) (n : ℕ) (hn : n < cfg1.N) : Vec F S4096x128 .bf16 × Vec F S4096x128 .f32 :=
  (k1_pay3 (accAt1 V c n hn), accAt1 V c n hn)

theorem sc1_first (c : Dev nD) (t : Fin cfg1.N) (h : t.val % 98 = 0) :
    (outsAt1 V c t.val t.isLt).2 = k1_pay2 (grid1.coords t) (iblk1 V c 0 t) (iblk1 V c 1 t) (iblk1 V c 2 t) (k1_pay1 (F := F)) := by
  obtain ⟨n, hn⟩ := t
  cases n with
  | zero => rfl
  | succ n => exact congrArg (k1_pay2 _ _ _ _) (if_pos h)

theorem sc1_next (c : Dev nD) (t : Fin cfg1.N) (h : t.val % 98 ≠ 0) :
    (outsAt1 V c t.val t.isLt).2 = k1_pay2 (grid1.coords t) (iblk1 V c 0 t) (iblk1 V c 1 t) (iblk1 V c 2 t) (outsAt1 V c (t.val - 1) (Nat.lt_of_le_of_lt (Nat.sub_le _ _) t.isLt)).2 := by
  obtain ⟨n, hn⟩ := t
  cases n with
  | zero => exact absurd (Nat.zero_mod _) h
  | succ n => exact congrArg (k1_pay2 _ _ _ _) (if_neg h)

theorem out1_last (c : Dev nD) (t : Fin cfg1.N) (h : t.val % 98 = 97) :
    (outsAt1 V c t.val t.isLt).1 = k1_pay3 (outsAt1 V c t.val t.isLt).2 := rfl

def PhiS1 (c : Dev nD) : (n : ℕ) → n ≤ cfg1.N → sProp 𝕄
  | 0, _ => Pipeline.ΦA spec1 c
  | n + 1, hn => iprop(iprop(owns (c : Thread nD τ) scM1_0 fullShare (outsAt1 V c n hn).2 ∗ rest1 (F := F) c) ∗ (∃ r, prngReg c r))

theorem PhiS1_pos (c : Dev nD) (n : ℕ) (h : n ≤ cfg1.N) (hz : n ≠ 0) :
    PhiS1 V c n h = iprop(iprop(owns (c : Thread nD τ) scM1_0 fullShare (outsAt1 V c (n - 1) (by omega)).2 ∗ rest1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem noFlush1_3 (t : Fin cfg1.N) (h : ¬t.val % 98 = 97) : (cfg1.win 3).flush t = false := by
  rw [← Bool.not_eq_true]; exact fun hf => h ((flush1_3_iff t).mp hf)

theorem Phi_weak1 (c : Dev nD) (t : Fin (cfg1.N + 1)) :
    (dat1 V c).Φ t ⊢ iprop(iprop((∃ d, owns (c : Thread nD τ) scM1_0 fullShare d) ∗ rest1 (F := F) c) ∗ (∃ r, prngReg c r)) := by
  obtain ⟨n, hn⟩ := t
  cases n with
  | zero => show (Pipeline.ΦA spec1 c : sProp 𝕄) ⊢ _; rw [PhiA1_eq]
  | succ n =>
    show iprop(iprop(owns (c : Thread nD τ) scM1_0 fullShare (outsAt1 V c n _).2 ∗ rest1 (F := F) c) ∗ (∃ r, prngReg c r)) ⊢ _
    iintro ⟨⟨HS0, HR⟩, Hg⟩
    iframe HR Hg
    iexists _; iexact HS0

theorem hin1 (c : Dev nD) : (Pipeline.ΦA spec1 c : sProp 𝕄) ⊢ (dat1 V c).Φ 0 := Idealize.SL.BI.Entails.refl _

theorem hout1 (c : Dev nD) : (dat1 V c).Φ (Fin.last cfg1.N) ⊢ (Pipeline.ΦA spec1 c : sProp 𝕄) := by
  rw [PhiA1_eq]; exact Phi_weak1 V c _

-- The inner coordinate `t % 98` selects the case whose triple applies; everything but the accumulator and the output block passes through.
theorem body_obligation1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
    ⊢ wp frame (wpE (defs₀ (F := F)) Variants.none c none) Set.univ (bodyAt1 t) (fun _ =>
      iprop(iprop(iprop(owns (c : Thread nD τ) scM1_0 fullShare (outsAt1 V c t.val t.isLt).2 ∗ rest1 (F := F) c) ∗ (∃ r, prngReg c r))
        ∗ (dat1 V c).owesAt () t.castSucc ∗ owns (c : Thread nD τ) (ms1_0 t) fullShare (iblk1 V c 0 t)
        ∗ owns (c : Thread nD τ) (ms1_1 t) fullShare (iblk1 V c 1 t) ∗ owns (c : Thread nD τ) (ms1_2 t) fullShare (iblk1 V c 2 t)
        ∗ (dat1 V c).leavesExact 3 t))
  simp only [before1_0, before1_1, before1_2]
  by_cases h0 : t.val % 98 = 0
  · have h1 : ¬t.val % 98 = 97 := by omega
    have hc1 : ¬cond1_1 (grid1.coords t) := fun h => h1 ((hcond1_1 t).mp h)
    rw [Dat.leavesExact_idle (dat1 V c) 3 t (idleAt1_3 t hc1) (noFlush1_3 t h1), sc1_first V c t h0]
    iintro ⟨HΦ, Ho, ⟨%d0, H0⟩, ⟨%d1, H1⟩, ⟨%d2, H2⟩, ⟨%d3, H3⟩⟩
    ihave HΦ := (Phi_weak1 V c t.castSucc) $$ HΦ
    icases HΦ with ⟨⟨⟨%s, HS0⟩, HR⟩, Hg⟩
    iapply (run1_A c _ _ _ _ _ _ _ _ _ _ _ _ _ _ ((hcond1_0 t).mpr h0) hc1 _ _ Set.univ _)
    iframe H0 H1 H2 H3 HS0
    iintro ⟨H0, H1, H2, H3, HS0⟩
    iframe HS0 HR Hg Ho H0 H1 H2
    iexists _; iexact H3
  · have hc0 : ¬cond1_0 (grid1.coords t) := fun h => h0 ((hcond1_0 t).mp h)
    rw [sc1_next V c t h0, show (dat1 V c).Φ t.castSucc = PhiS1 V c t.val (Nat.le_of_lt t.isLt) from rfl,
      PhiS1_pos V c _ _ fun e => h0 (by rw [e])]
    by_cases h1 : t.val % 98 = 97
    · have hc1 := (hcond1_1 t).mpr h1
      rw [show (dat1 V c).leavesExact 3 t = owns (c : Thread nD τ) (ms1_3 t) fullShare (k1_pay3 (outsAt1 V c t.val t.isLt).2) from by
        unfold Dat.leavesExact; rw [liveAt1_3 t hc1]; rfl, sc1_next V c t h0]
      iintro ⟨⟨⟨HS0, HR⟩, Hg⟩, Ho, ⟨%d0, H0⟩, ⟨%d1, H1⟩, ⟨%d2, H2⟩, ⟨%d3, H3⟩⟩
      iapply (run1_C c _ _ _ _ _ _ _ _ _ _ _ _ _ _ hc0 hc1 _ _ Set.univ _)
      iframe H0 H1 H2 H3 HS0
      iintro ⟨H0, H1, H2, H3, HS0⟩
      iframe HS0 HR Hg Ho H0 H1 H2 H3
    · have hc1 : ¬cond1_1 (grid1.coords t) := fun h => h1 ((hcond1_1 t).mp h)
      rw [Dat.leavesExact_idle (dat1 V c) 3 t (idleAt1_3 t hc1) (noFlush1_3 t h1)]
      iintro ⟨⟨⟨HS0, HR⟩, Hg⟩, Ho, ⟨%d0, H0⟩, ⟨%d1, H1⟩, ⟨%d2, H2⟩, ⟨%d3, H3⟩⟩
      iapply (run1_B c _ _ _ _ _ _ _ _ _ _ _ _ _ _ hc0 hc1 _ _ Set.univ _)
      iframe H0 H1 H2 H3 HS0
      iintro ⟨H0, H1, H2, H3, HS0⟩
      iframe HS0 HR Hg Ho H0 H1 H2
      iexists _; iexact H3

end Cert.KernelIdeal.Hand

end
-- ==== Proof.KI.Reg2Base.lean ====
import proofs.«418018_j53446573032075_1_alg».proof.Proof.Gen.KernelIdeal.Launch
import proofs.«418018_j53446573032075_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic
import proofs.«418018_j53446573032075_1_alg».proof.Proof.LibOwn

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's two tests on the inner coordinate: is it 0, is it 390. -/
abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

theorem cond2_0_iff (i : grid2.Coords) : cond2_0 i ↔ (i 1).val = 0 :=
  (by decide +kernel : ∀ k : Fin 391, (Scalar.cmpi .ne (Scalar.extui (Scalar.cmpi .eq (BitVec.ofNat 32 k.val) 0#32)) 0#32) = 1#1 ↔ k.val = 0) (i 1)
theorem cond2_1_iff (i : grid2.Coords) : cond2_1 i ↔ (i 1).val = 390 :=
  (by decide +kernel : ∀ k : Fin 391, (Scalar.cmpi .ne (Scalar.extui (Scalar.cmpi .eq (BitVec.ofNat 32 k.val) 390#32)) 0#32) = 1#1 ↔ k.val = 390) (i 1)

theorem idleAt2_2 (t : Fin cfg2.N) (h1 : ¬cond2_1 (grid2.coords t)) : cfg2.idle 2 (grid2.coords t) = true := by
  show (!(k2_cond2 (grid2.coords t) == 1#1)) = true
  rw [Bool.not_eq_true', beq_eq_false_iff_ne]; exact h1
theorem liveAt2_2 (t : Fin cfg2.N) (h1 : cond2_1 (grid2.coords t)) : cfg2.idle 2 (grid2.coords t) = false := by
  show (!(k2_cond2 (grid2.coords t) == 1#1)) = false
  rw [Bool.not_eq_false', beq_iff_eq]; exact h1

/-- The memrefs the body is called with at point `t`, each a whole buffer, and the scratch that carries the running sum. -/
abbrev ms2_0 (t : Fin cfg2.N) : Memref sig .tc .vmem S1x4096 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
abbrev scM2_0 : Memref sig .tc .vmem S1024x128 .f32 := Memref.whole cc2_scratch0

/-- The core's other scoped buffers, which this region never opens. -/
abbrev others2 (c : Dev nD) : sProp 𝕄 :=
  Pipeline.scopedRestBut (Ix := Unit) (Name := ℕ) (U := UR sig nD τ) (Lvl := ℕ) (Val := Elt F) spec2 c [cc2_scratch0]

/-- The invariant the region is entered and left with, its scratch singled out at some contents. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA
  rw [Pipeline.scopedRest_split_of_list spec2 c [cc2_scratch0] (by decide) (by decide)]
  simp only [scM2_0, owns_whole]; try rfl

/-- The body's triple on whole memrefs: from the inputs at `x0`, `x1`, the output block at `o` and the scratch at `s`, it hands
    the inputs back as found, the output block at `o'` and the scratch at `s'`. -/
def Spec2 (c : Dev nD) (i : grid2.Coords) (arg2 : Memref sig .tc .vmem S1x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole)
    (x0 : Vec F S1x4096 .i32) (x1 : Vec F S4096x128 .bf16) (s o s' o' : Vec F S1024x128 .f32) : Prop :=
  ∀ (E : Set ℕ) (K : PUnit → sProp 𝕄),
    iprop(owns (c : Thread nD τ) arg2 fullShare x0 ∗ owns (c : Thread nD τ) arg3 fullShare x1 ∗ owns (c : Thread nD τ) arg4 fullShare o ∗ owns (c : Thread nD τ) arg5 fullShare s
        ∗ (iprop(owns (c : Thread nD τ) arg2 fullShare x0 ∗ owns (c : Thread nD τ) arg3 fullShare x1 ∗ owns (c : Thread nD τ) arg4 fullShare o' ∗ owns (c : Thread nD τ) arg5 fullShare s') -∗ K ⟨⟩))
      ⊢ wp frame (wpE (defs₀ (F := F)) Variants.none c none) E (cc2__stage_b_kernel i arg2 harg2 arg3 harg3 arg4 harg4 arg5 harg5) K

end Cert.KernelIdeal.Hand

end
-- ==== Proof.KI.Reg2RunA.lean ====
import proofs.«418018_j53446573032075_1_alg».proof.Proof.KI.Reg2Base

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.KernelIdeal Cert.KernelIdeal.Gen

variable {F : FTy → Type} [FloatOps F]

local notation "𝕄" => MT nD τ sig Unit (Elt F) ℕ (UR sig nD τ) ℕ

/-- At inner coordinate 0 the body restarts the sum: the scratch ends at the step's partial product added to the zero block. -/
theorem kernelRun2_A (c : Dev nD) (i : grid2.Coords) (arg2 : Memref sig .tc .vmem S1x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S1x4096 .i32) (x1 : Vec F S4096x128 .bf16) (s o : Vec F S1024x128 .f32) : Spec2 c i arg2 harg2 arg3 harg3 arg4 harg4 arg5 harg5 x0 x1 s o (k2_pay2 i x0 x1 k2_pay1) o := by
  intro E K
  simp only [cc2__stage_b_kernel_eq_skeleton, owns_eq_unread (c : Thread nD τ) harg2, owns_eq_unread (c : Thread nD τ) harg3, owns_eq_unread (c : Thread nD τ) harg4]
  unfold cc2__stage_b_kernel_skel owns
  iintro ⟨H0, H1, H2, ⟨%fs0, -, HS0⟩, Hk⟩
  sl_exec (disch := first | exact hc0 | exact hc1)
  sl_step
  iapply Hk
  iframe H0 H1 H2
  iexists _; isplitr; swap; · iexact HS0
  ipureintro; sl_unfold_words
  rw [read_store S1024x128 hz2, View.readCov_unit_zero (S := S1024x128) _ hz2, readAt_whole harg2 hz2, readAt_whole harg3 hz2]

end Cert.KernelIdeal.Hand

end
-- ==== Proof.KI.Reg2RunB.lean ====
import proofs.«418018_j53446573032075_1_alg».proof.Proof.KI.Reg2RunA

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.KernelIdeal Cert.KernelIdeal.Gen

variable {F : FTy → Type} [FloatOps F]

local notation "𝕄" => MT nD τ sig Unit (Elt F) ℕ (UR sig nD τ) ℕ

/-- Strictly between the ends the body adds the step's partial product to the sum it finds in the scratch. -/
theorem kernelRun2_B (c : Dev nD) (i : grid2.Coords) (arg2 : Memref sig .tc .vmem S1x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S1x4096 .i32) (x1 : Vec F S4096x128 .bf16) (s o : Vec F S1024x128 .f32) : Spec2 c i arg2 harg2 arg3 harg3 arg4 harg4 arg5 harg5 x0 x1 s o (k2_pay2 i x0 x1 s) o := by
  intro E K
  simp only [cc2__stage_b_kernel_eq_skeleton, owns_eq_unread (c : Thread nD τ) harg2, owns_eq_unread (c : Thread nD τ) harg3, owns_eq_unread (c : Thread nD τ) harg4]
  unfold cc2__stage_b_kernel_skel owns
  iintro ⟨H0, H1, H2, ⟨%fs0, %hfs0, HS0⟩, Hk⟩
  obtain rfl := harg5.eq_unread hfs0
  sl_exec (disch := first | exact hc0 | exact hc1)
  sl_step
  iapply Hk
  iframe H0 H1 H2
  iexists _; isplitr; swap; · iexact HS0
  ipureintro
  rw [read_store S1024x128 hz2, readAt_whole harg2 hz2, readAt_whole harg3 hz2, readAt_whole harg5 hz2]

end Cert.KernelIdeal.Hand

end
-- ==== Proof.KI.Reg2RunC.lean ====
import proofs.«418018_j53446573032075_1_alg».proof.Proof.KI.Reg2RunB

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.KernelIdeal Cert.KernelIdeal.Gen

variable {F : FTy → Type} [FloatOps F]

local notation "𝕄" => MT nD τ sig Unit (Elt F) ℕ (UR sig nD τ) ℕ

/-- At inner coordinate 390 it does the same and then copies the finished sum into the output block. -/
theorem kernelRun2_C (c : Dev nD) (i : grid2.Coords) (arg2 : Memref sig .tc .vmem S1x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S1x4096 .i32) (x1 : Vec F S4096x128 .bf16) (s o : Vec F S1024x128 .f32) : Spec2 c i arg2 harg2 arg3 harg3 arg4 harg4 arg5 harg5 x0 x1 s o (k2_pay2 i x0 x1 s) (k2_pay2 i x0 x1 s) := by
  intro E K
  simp only [cc2__stage_b_kernel_eq_skeleton, owns_eq_unread (c : Thread nD τ) harg2, owns_eq_unread (c : Thread nD τ) harg3]
  unfold cc2__stage_b_kernel_skel owns
  iintro ⟨H0, H1, ⟨%f2, -, H2⟩, ⟨%fs0, %hfs0, HS0⟩, Hk⟩
  obtain rfl := harg5.eq_unread hfs0
  sl_exec (disch := first | exact hc0 | exact hc1)
  sl_step
  iapply Hk
  iframe H0 H1
  isplitl [H2]
  · iexists _; isplitr; swap; · iexact H2
    ipureintro; sl_unfold_words
    rw [read_store S1024x128 hz2, View.readCov_unit_zero (S := S1024x128) _ hz2, readAt_whole harg2 hz2, readAt_whole harg3 hz2, readAt_whole harg5 hz2]
  iexists _; isplitr; swap; · iexact HS0
  ipureintro; sl_unfold_words
  rw [read_store S1024x128 hz2, readAt_whole harg2 hz2, readAt_whole harg3 hz2, readAt_whole harg5 hz2]

end Cert.KernelIdeal.Hand

end
-- ==== Proof.KI.Reg2.lean ====
import proofs.«418018_j53446573032075_1_alg».proof.Proof.KI.Reg2RunC
import proofs.«418018_j53446573032075_1_alg».proof.Proof.KI.Sched

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

theorem hcond2_0 (t : Fin cfg2.N) : cond2_0 (grid2.coords t) ↔ t.val % 391 = 0 := by
  rw [cond2_0_iff, coords2_1]
theorem hcond2_1 (t : Fin cfg2.N) : cond2_1 (grid2.coords t) ↔ t.val % 391 = 390 := by
  rw [cond2_1_iff, coords2_1]

/-- The running sum of the row block after the body at position `n`: the step's partial product added to the zero
    block at a first step, else to the sum the position before left. -/
def sc2 (c : Dev nD) : (n : ℕ) → n < cfg2.N → Vec F S1024x128 .f32
  | 0, h => k2_pay2 (grid2.coords ⟨0, h⟩) (iblk2 V c 0 ⟨0, h⟩) (iblk2 V c 1 ⟨0, h⟩) k2_pay1
  | n + 1, h => k2_pay2 (grid2.coords ⟨n + 1, h⟩) (iblk2 V c 0 ⟨n + 1, h⟩) (iblk2 V c 1 ⟨n + 1, h⟩)
      (if (n + 1) % 391 = 0 then k2_pay1 else sc2 c n (Nat.lt_of_succ_lt h))

/-- (The output buffer, the scratch) after position `n`: the output buffer is consulted at last steps only, where it holds the sum too. -/
def outsAt2 (c : Dev nD) (n : ℕ) (h : n < cfg2.N) : Vec F S1024x128 .f32 × Vec F S1024x128 .f32 := (sc2 V c n h, sc2 V c n h)

theorem sc2_first (c : Dev nD) (t : Fin cfg2.N) (h : t.val % 391 = 0) :
    (outsAt2 V c t.val t.isLt).2 = k2_pay2 (grid2.coords t) (iblk2 V c 0 t) (iblk2 V c 1 t) (k2_pay1 (F := F)) := by
  obtain ⟨_ | n, hn⟩ := t
  · rfl
  · exact congrArg (k2_pay2 _ _ _) (if_pos h)

theorem sc2_next (c : Dev nD) (t : Fin cfg2.N) (h : t.val % 391 ≠ 0) :
    (outsAt2 V c t.val t.isLt).2 = k2_pay2 (grid2.coords t) (iblk2 V c 0 t) (iblk2 V c 1 t) (outsAt2 V c (t.val - 1) (Nat.lt_of_le_of_lt (Nat.sub_le _ _) t.isLt)).2 := by
  obtain ⟨_ | n, hn⟩ := t
  · exact absurd (Nat.zero_mod _) h
  · exact congrArg (k2_pay2 _ _ _) (if_neg h)

theorem out2_last (c : Dev nD) (t : Fin cfg2.N) (h : t.val % 391 = 390) :
    (outsAt2 V c t.val t.isLt).1 = (outsAt2 V c t.val t.isLt).2 := rfl

/-- Before position `n`: the scratch at some contents (at what the position before left, unless `n` begins a row block),
    the other scoped buffers unopened, the pseudo-random number register at some state. -/
def PhiS2 (c : Dev nD) (n : ℕ) (hn : n ≤ cfg2.N) : sProp 𝕄 :=
  iprop(iprop((∃ s, ⌜∀ h : n % 391 ≠ 0, s = (outsAt2 V c (n - 1) (by omega)).2⌝ ∗ owns (c : Thread nD τ) scM2_0 fullShare s) ∗ others2 (F := F) c) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_2 (c : Dev nD) (t : Fin cfg2.N) : (dat2 V c).after 2 t = (outsAt2 V c t.val t.isLt).1 := rfl
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

/-- The body at point `t`, from the scratch at `s` (the sum so far, unless `t` begins a row block): it leaves there this
    point's sum, and at inner coordinate 390 in the output block too. -/
theorem run2 (c : Dev nD) (t : Fin cfg2.N) (s d2 : Vec F S1024x128 .f32)
    (hs : t.val % 391 ≠ 0 → s = (outsAt2 V c (t.val - 1) (Nat.lt_of_le_of_lt (Nat.sub_le _ _) t.isLt)).2) :
    Spec2 c (grid2.coords t) (ms2_0 t) (hs2_0 t) (ms2_1 t) (hs2_1 t) (ms2_2 t) (hs2_2 t) scM2_0 (Memref.isWhole_whole _) (iblk2 V c 0 t) (iblk2 V c 1 t)
      s d2 (outsAt2 V c t.val t.isLt).2 (if t.val % 391 = 390 then (outsAt2 V c t.val t.isLt).2 else d2) := by
  by_cases h0 : t.val % 391 = 0
  · have h1 : ¬t.val % 391 = 390 := by omega
    rw [if_neg h1, sc2_first V c t h0]
    exact kernelRun2_A c _ _ _ _ _ _ _ _ _ ((hcond2_0 t).mpr h0) (mt (hcond2_1 t).mp h1) _ _ s d2
  · rw [sc2_next V c t h0, ← hs h0]
    by_cases h1 : t.val % 391 = 390
    · rw [if_pos h1]
      exact kernelRun2_C c _ _ _ _ _ _ _ _ _ (mt (hcond2_0 t).mp h0) ((hcond2_1 t).mpr h1) _ _ s d2
    · rw [if_neg h1]
      exact kernelRun2_B c _ _ _ _ _ _ _ _ _ (mt (hcond2_0 t).mp h0) (mt (hcond2_1 t).mp h1) _ _ s d2

/-- At inner coordinate 390 the output block is left at the sum; elsewhere it is as the body found it. -/
theorem leaves2_2 (c : Dev nD) (t : Fin cfg2.N) (d) :
    owns (c : Thread nD τ) (ms2_2 t) fullShare (if t.val % 391 = 390 then (outsAt2 V c t.val t.isLt).2 else (dat2 V c).before 2 t d)
      ⊢ (dat2 V c).leavesExact 2 t := by
  by_cases h1 : t.val % 391 = 390
  · rw [if_pos h1, show (dat2 V c).leavesExact 2 t = owns (c : Thread nD τ) (ms2_2 t) fullShare (outsAt2 V c t.val t.isLt).2 from by
      unfold Dat.leavesExact; rw [liveAt2_2 t ((hcond2_1 t).mpr h1)]; rfl]
  · rw [if_neg h1, Dat.leavesExact_idle (dat2 V c) 2 t (idleAt2_2 t (mt (hcond2_1 t).mp h1)) (Bool.eq_false_iff.mpr (mt (flush2_2_iff t).mp h1))]
    iintro H; iexists d; iexact H

/-- The body at any point: the invariant hands it the scratch and takes it back at this point's sum. -/
theorem sound_body2 (c : Dev nD) (t : Fin cfg2.N) :
    iprop(PhiS2 V c t.val (Nat.le_of_lt t.isLt) ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame (wpE (defs₀ (F := F)) Variants.none c none) Set.univ (bodyAt2 t) (fun _ =>
      iprop(PhiS2 V c (t.val + 1) t.isLt ∗ (dat2 V c).owesAt () t.castSucc ∗ owns (c : Thread nD τ) (ms2_0 t) fullShare (iblk2 V c 0 t) ∗ owns (c : Thread nD τ) (ms2_1 t) fullShare (iblk2 V c 1 t) ∗ (dat2 V c).leavesExact 2 t)) := by
  simp only [before2_0, before2_1]
  unfold PhiS2
  iintro ⟨⟨⟨⟨%s, %hs, HS⟩, Hr⟩, Hg⟩, Ho, ⟨%d0, H0⟩, ⟨%d1, H1⟩, ⟨%d2, H2⟩⟩
  iapply run2 V c t s ((dat2 V c).before 2 t d2) hs Set.univ
  iframe H0 H1 H2 HS
  iintro ⟨H0, H1, H2, HS⟩
  iframe Hr Hg Ho H0 H1
  isplitl [HS]
  · iexists _; isplitr; swap; · iexact HS
    ipureintro; exact fun _ => rfl
  iapply leaves2_2 V c t d2; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = PhiS2 V c 0 (Nat.zero_le _) from rfl, PhiA2_eq]; unfold PhiS2
  iintro ⟨⟨⟨%d, H⟩, Ho⟩, Hg⟩
  iframe Ho Hg
  iexists d; isplitr; · ipureintro; exact fun h => absurd (Nat.zero_mod _) h
  iexact H

/-- After the last point the invariant gives the entry invariant back: what the scratch holds is forgotten. -/
theorem hout2 (c : Dev nD) : (dat2 V c).Φ (Fin.last cfg2.N) ⊢ (Pipeline.ΦA spec2 c : sProp 𝕄) := by
  rw [show (dat2 V c).Φ (Fin.last cfg2.N) = PhiS2 V c cfg2.N (Nat.le_refl _) from rfl, PhiA2_eq]; unfold PhiS2
  iintro ⟨⟨⟨%s, -, H⟩, Ho⟩, Hg⟩
  iframe Ho Hg
  iexists s; iexact H

end Cert.KernelIdeal.Hand

end
-- ==== Proof.KI.Run.lean ====
import proofs.«418018_j53446573032075_1_alg».proof.Proof.KI.Reg0
import proofs.«418018_j53446573032075_1_alg».proof.Proof.KI.Reg1
import proofs.«418018_j53446573032075_1_alg».proof.Proof.KI.Reg2
import proofs.«418018_j53446573032075_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

abbrev E0 : (c : Dev nD) → (b : Ref sig .tc) → Buf (Elt F) ((c : Thread nD τ).loc b) := fun c b => V0 m c b
def res0 (c : Dev nD) : Buf (Elt F) ((c : Thread nD τ).loc main_v0) := (dat0 (E0 m) c).arrAt 2 cfg0.N
def oA : Outs (F := F) := fun _ r c => if h : r = main_v0 then h ▸ res0 m c else m ((c : Thread nD τ).loc r)
abbrev E1 : (c : Dev nD) → (b : Ref sig .tc) → Buf (Elt F) ((c : Thread nD τ).loc b) := fun c b => V9 m (oA m) c b
def res1 (c : Dev nD) : Buf (Elt F) ((c : Thread nD τ).loc main_v8) := (dat1 (E1 m) c).arrAt 3 cfg1.N
def oB : Outs (F := F) := fun _ r c =>
  if h : r = main_v0 then h ▸ res0 m c else if h : r = main_v8 then h ▸ res1 m c else m ((c : Thread nD τ).loc r)
abbrev E2 : (c : Dev nD) → (b : Ref sig .tc) → Buf (Elt F) ((c : Thread nD τ).loc b) := fun c b => V10 m (oB m) c b
def res2 (c : Dev nD) : Buf (Elt F) ((c : Thread nD τ).loc main_v9) := (dat2 (E2 m) c).arrAt 2 cfg2.N
def oC : Outs (F := F) := fun _ r c =>
  if h : r = main_v0 then h ▸ res0 m c else if h : r = main_v8 then h ▸ res1 m c
  else if h : r = main_v9 then h ▸ res2 m c else m ((c : Thread nD τ).loc r)

theorem oA_v0 (J : ℕ) (c : Dev nD) : oA m J main_v0 c = res0 m c := dif_pos rfl
theorem oB_v0 (J : ℕ) (c : Dev nD) : oB m J main_v0 c = res0 m c := dif_pos rfl
theorem oB_v8 (J : ℕ) (c : Dev nD) : oB m J main_v8 c = res1 m c := (dif_neg (by decide)).trans (dif_pos rfl)
theorem oC_v0 (J : ℕ) (c : Dev nD) : oC m J main_v0 c = res0 m c := dif_pos rfl
theorem oC_v8 (J : ℕ) (c : Dev nD) : oC m J main_v8 c = res1 m c := (dif_neg (by decide)).trans (dif_pos rfl)
theorem oC_v9 (J : ℕ) (c : Dev nD) : oC m J main_v9 c = res2 m c :=
  (dif_neg (by decide)).trans ((dif_neg (by decide)).trans (dif_pos rfl))

-- The host stretches before the second pass read, of the passes' results, only the first's.
theorem V9_oC (c : Dev nD) : V9 m (oC m) c = V9 m (oA m) c := by
  simp only [V9, V8, V7, V6, V5, V4, V3, V2, V1, oC_v0, oA_v0]
theorem V9_oB (c : Dev nD) : V9 m (oB m) c = V9 m (oA m) c := by
  simp only [V9, V8, V7, V6, V5, V4, V3, V2, V1, oB_v0, oA_v0]
theorem V10_oC (c : Dev nD) : V10 m (oC m) c = V10 m (oB m) c := by
  show Function.update (V9 m (oC m) c) _ (oC m 10 main_v8 c) = Function.update (V9 m (oB m) c) _ (oB m 10 main_v8 c)
  rw [V9_oC, V9_oB, oC_v8, oB_v8]

def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

theorem pdats_plain (p : Fin 3) (c : Dev nD) : (∀ w, (pdats m p c).q w = fullShare) ∧ ∀ t, (pdats m p c).owed t = 0 ∧ (pdats m p c).recorded t = Set.univ :=
  match p with
  | ⟨0, _⟩ | ⟨1, _⟩ | ⟨2, _⟩ => ⟨fun _ => rfl, fun _ => ⟨rfl, rfl⟩⟩

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev stateAt (V : Valuation τ sig (Elt F)) (c : Dev nD) : sProp 𝕄 := iprop(StableHlo.held (c : Thread nD τ) (Pipeline.ucRefs τ sig) V ∗ R c)

theorem not_mem_arr {gr W : ℕ} {win : Fin W → Pipeline.WinSpec sig gr} {b : Ref sig .tc}
    (hb : b ∉ Finset.univ.image (Pipeline.arrRef win)) (w : Fin W) : b ∉ [Pipeline.arrRef win w] :=
  fun h => hb (Finset.mem_image.mpr ⟨w, Finset.mem_univ _, (List.mem_singleton.mp h).symm⟩)

-- A pass as an item of the run, from contents `V` to `V'`: `V'` differs from `V` only at the output array, where it is the pass's result.
def regOf {p : Fin 3} (lf : Pipeline.LaunchFacts (nD := nD) (τ := τ) cfgs p) (V V' : (c : Dev nD) → Valuation τ sig (Elt F))
    (hb : ∀ c, BodyObligation (pdats m p c) (defs₀ (F := F)) Variants.none () Set.univ)
    (hA : ∀ c w, (pdats m p c).A w = V c (Pipeline.arrRef (cfgs p).spec w))
    (hi : ∀ c, Pipeline.ΦA (cfgs p).spec c ⊢ (pdats m p c).Φ 0)
    (ho : ∀ c, (pdats m p c).Φ (Fin.last (cfgs p).N) ⊢ Pipeline.ΦA (cfgs p).spec c)
    (wo : Fin (cfgs p).W) (hio : ∀ w, w ≠ wo → ((cfgs p).win w).isOut = false)
    (hne : ∀ c (b : Ref sig .tc), b ∉ [Pipeline.arrRef (cfgs p).spec wo] → V' c b = V c b)
    (hwo : ∀ c, (pdats m p c).arrAt wo (cfgs p).N = V' c (Pipeline.arrRef (cfgs p).spec wo)) :
    RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c t => ((pdats_plain m p c).2 t).1
  pre c := stateAt (V c) c
  post c := stateAt (V' c) c
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    have hsplit := Pipeline.arrays_of_unscopedBufs pcfgs adm (pdats m) lf.win lf.arr_whole c
      ((pdats m p c).share_full (pdats_plain m p c).1) (fun b => V c b) (hA c)
    rw [Pipeline.unscopedBufs_held] at hsplit
    unfold Pipeline.Dat.owesAt Pipeline.owesWithin Pipeline.Dat.bound
    rw [Pipeline.ownSems0_none, ((pdats_plain m p c).2 0).1, ((pdats_plain m p c).2 0).2]
    iintro ⟨⟨Hub, Hp, %W, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    iexists W; iframe HO
    ipureintro; exact fun _ _ => Or.inl trivial
  hin c := by
    refine .trans ?_ (hi c)
    unfold Pipeline.ΦA
    iintro ⟨Hp, -, Hr⟩
    iframe Hr Hp
  hout c := by
    rw [Pipeline.ownSems0_none]
    refine (ho c).trans ?_
    unfold Pipeline.ΦA
    iintro ⟨Hr, Hp⟩
    iframe Hp Hr
    iempintro
  hexit c := by
    have hjoin := Pipeline.unscopedBufs_of_arrays pcfgs adm (Ix := Unit) (Name := ℕ) (U := UR sig nD τ) (Lvl := ℕ)
      lf.win lf.arr_whole c (pdats m) ((pdats m p c).share_full (pdats_plain m p c).1)
      (fun b => V c b) (fun b => V' c b) ((pdats m p c).arrAt · (cfgs p).N)
      (fun w => by
        by_cases h : w = wo
        · subst h; exact hwo c
        · exact ((pdats m p c).arrAt_in w (hio w h) _).trans
            ((hA c w).trans (hne c _ fun hm => h (lf.win.arr_inj (List.mem_singleton.mp hm))).symm))
      fun b hb => hne c b (not_mem_arr hb wo)
    rw [Pipeline.unscopedBufs_held] at hjoin
    unfold Pipeline.Dat.owesAt Pipeline.owesWithin
    rw [((pdats_plain m p c).2 _).1]
    iintro ⟨Ha, ⟨%W, -, HO⟩, HY, Hrest⟩
    imodintro
    isplitl [Ha Hrest]
    · iapply hjoin; iframe Ha Hrest
    isplitl [HY]; · iexact HY
    iexists W; iexact HO

theorem upd_out {r : Ref sig .tc} {c : Dev nD} (V : Valuation τ sig (Elt F)) {x y : Buf (Elt F) ((c : Thread nD τ).loc r)} (h : x = y) :
    y = Function.update V r x r := by rw [Function.update_self, h]

def reg0 : RegionSeg (pcfgs (F := F)) adm (pdats m) () defs₀ Variants.none L lv 0 :=
  regOf m launch0 (V0 m) (fun c => V1 m (oC m) c) (body_obligation0 (E0 m)) (fun _ _ => rfl) (fun _ => .rfl) (fun _ => .rfl)
    (2 : Fin 3) (by decide) (fun c b => V1_of m (oC m) c b) fun c => upd_out _ (oC_v0 m 1 c)

def reg1 : RegionSeg (pcfgs (F := F)) adm (pdats m) () defs₀ Variants.none L lv 1 :=
  regOf m launch1 (fun c => V9 m (oA m) c) (fun c => V10 m (oC m) c) (body_obligation1 (E1 m)) (fun _ _ => rfl) (hin1 (E1 m)) (hout1 (E1 m))
    (3 : Fin 4) (by decide) (fun c b h => (V10_of m (oC m) c b h).trans (congrFun (V9_oC m c) b)) fun c => upd_out _ (oC_v8 m 10 c)

def reg2 : RegionSeg (pcfgs (F := F)) adm (pdats m) () defs₀ Variants.none L lv 2 :=
  regOf m launch2 (fun c => V10 m (oB m) c) (fun c => V11 m (oC m) c) (body_obligation2 (E2 m)) (fun _ _ => rfl) (hin2 (E2 m)) (hout2 (E2 m))
    (2 : Fin 3) (by decide) (fun c b h => (V11_of m (oC m) c b h).trans (congrFun (V10_oC m c) b)) fun c => upd_out _ (oC_v9 m 11 c)

theorem hpre1 (c : Dev nD) : stateAt (V9 m (oC m) c) c ⊢ stateAt (F := F) (V9 m (oA m) c) c := by rw [V9_oC m c]
theorem hpre2 (c : Dev nD) : stateAt (V10 m (oC m) c) c ⊢ stateAt (F := F) (V10 m (oB m) c) c := by rw [V10_oC m c]

abbrev launchU : UR sig nD τ := initOf (Pipeline.cells cfgs cellOf_inj) (Pipeline.launchToks cfgs cellOf_inj)

theorem hu0 : (ownU launchU : sProp 𝕄) ⊢ |={Set.univ}=> iprop(BI.own (emb₁ launchU) ∗ bigSep Finset.univ fun _ : Dev nD => (BI.emp : sProp 𝕄)) := by
  rw [BI.bigSep_emp_const]
  iintro Hu; imodintro
  isplitl [Hu]
  · iapply (show (ownU launchU : sProp 𝕄) ⊢ BI.own (emb₁ launchU) from .rfl)
    iexact Hu
  iempintro

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = V12 m (oC m) c b) := by
  refine Pipeline.θ_run_regions_kit_dev (pcfgs (F := F)) adm (pdats m) () cellOf_inj (emb₁ (A := UR sig nD τ)) defs₀ Variants.none L lv m ρ main
    (segs m (oC m) Variants.none L lv (fun _ c => R c) () (pdats m) (reg0 m) (reg1 m) (reg2 m))
    (fun c Q => by rewrite [main_chain c, Seg.run_eq_chain]; exact .rfl)
    (fun c => by simp only [segs, Seg.pipes_host, Seg.pipes_region, Seg.pipes_nil]; decide) (0 : Dev nD → CellTallies nD τ sig Unit) (fun _ _ => rfl)
    (fun _ => (BI.emp : sProp 𝕄)) launchU hu0
    (T₀ := fun c => stateAt (V0 m c) c)
    (Tₙ := fun c => StableHlo.held (c : Thread nD τ) (Pipeline.ucRefs τ sig) (V12 m (oC m) c))
    (hch := fun c => ⟨.rfl, .rfl, .rfl, .rfl, .rfl, .rfl, .rfl, .rfl, .rfl, hpre1 m c, hpre2 m c, .rfl, sep_mono .rfl (by iintro ⟨-, H⟩; iexact H)⟩)
    (hinit := Pipeline.initEach L lv fun c => ?_)
    (QY := fun c s => ∀ b ∈ Pipeline.ucRefs τ sig, s.mem (((c : Thread nD τ)).1, b) = V12 m (oC m) c b)
    (hfin := fun c s' => ?_) (hQ := fun _ h => h)
  · rw [stateAt, ← Pipeline.unscopedBufs_held (Ix := Unit) (Name := ℕ) (U := UR sig nD τ) (Lvl := ℕ) c (V0 m c)]
    iintro ⟨⟨Hb, -, HO, -, Hp, -⟩, -⟩
    imodintro
    iframe Hb
    isplitl [Hp] <;> iexists _ <;> iassumption
  · unfold StableHlo.held
    iintro ⟨Hh, HSI⟩
    imodintro
    iapply (pointsTo_read_all (Pipeline.ucRefs τ sig) (fun b => ((c : Thread nD τ).1, b)) (V12 m (oC m) c) s')
    isplitl [Hh] <;> iassumption

-- The frame claim reads the five arguments off the run's last contents, which no item writes.
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c _ (mem_uc main_arg0 (by decide))).trans (V12_main_arg0 m _ c),
    (h c _ (mem_uc main_arg1 (by decide))).trans (V12_main_arg1 m _ c), (h c _ (mem_uc main_arg2 (by decide))).trans (V12_main_arg2 m _ c),
    (h c _ (mem_uc main_arg3 (by decide))).trans (V12_main_arg3 m _ c), (h c _ (mem_uc main_arg4 (by decide))).trans (V12_main_arg4 m _ c)⟩)
    (run_all m ρ)

end Cert.KernelIdeal.Hand

end
-- ==== Proof.Val.Spec.lean ====
import proofs.«418018_j53446573032075_1_alg».proof.KernelIdeal
import Idealize.ShloMosaic.PureOps.Ideal
import Idealize.ShloMosaic.Lib.ValueIdx

noncomputable section

namespace Cert.Val

open Idealize.ShloMosaic Idealize.ShloMosaic.ValueIdx
open Cert.KernelIdeal

def hot (a b : BitVec 32) (v : EReal) : EReal := if a = b then v else 0

theorem hot_eq (a : BitVec 32) (v : EReal) : hot a a v = v := if_pos rfl
theorem hot_ne {a b : BitVec 32} (h : a ≠ b) (v : EReal) : hot a b v = 0 := if_neg h
theorem hot_one_mul (a b : BitVec 32) (v : EReal) : hot a b 1 * v = hot a b v := by
  unfold hot
  split
  · exact one_mul v
  · exact zero_mul v

def hmat (x : FVec Ideal S100000x128 .f32) (w : FVec Ideal S128x128 .f32) : FVec Ideal S100000x128 .f32 :=
  fun i => ∑ k : Fin 128, x (ix2 (i 0) k) * w (ix2 k (i 1))

def padIdx (a : IVec S1600000 32) : IVec S1x1601536 32 :=
  fun i => if h : (i 1).val < 1600000 then a (ix1 ⟨(i 1).val, h⟩) else 4294967295#32

def padVals (v : FVec Ideal S1600000 .f32) : FVec Ideal S1x1601536 .f32 :=
  fun i => if h : (i 1).val < 1600000 then v (ix1 ⟨(i 1).val, h⟩) else 0

def padRows (h : FVec Ideal S100000x128 .f32) : FVec Ideal S100352x128 .f32 :=
  fun i => if hh : (i 0).val < 100000 then h (ix2 ⟨(i 0).val, hh⟩ (i 1)) else 0

def msgsOf (cols : IVec S1x1601536 32) (vals : FVec Ideal S1x1601536 .f32) (hp : FVec Ideal S100352x128 .f32) :
    FVec Ideal S1601536x128 .bf16 :=
  fun i => ∑ n : Fin 100352, hot (BitVec.ofNat 32 n.val) (cols (ix2 0 (i 0))) (vals (ix2 0 (i 0))) * hp (ix2 n (i 1))

def outpOf (rows : IVec S1x1601536 32) (ms : FVec Ideal S1601536x128 .bf16) : FVec Ideal S100352x128 .f32 :=
  fun i => ∑ e : Fin 1601536, hot (BitVec.ofNat 32 (i 0).val) (rows (ix2 0 e)) 1 * ms (ix2 e (i 1))

def firstRows (o : FVec Ideal S100352x128 .f32) : FVec Ideal S100000x128 .f32 :=
  fun i => o (ix2 ⟨(i 0).val, Nat.lt_trans (idx2_lt0 i) (by norm_num)⟩ (i 1))

def kernelOut (x : FVec Ideal S100000x128 .f32) (w : FVec Ideal S128x128 .f32) (vals : FVec Ideal S1600000 .f32)
    (rows cols : IVec S1600000 32) : FVec Ideal S100000x128 .f32 :=
  firstRows (outpOf (padIdx rows) (msgsOf (padIdx cols) (padVals vals) (padRows (hmat x w))))

def layerOut (x : FVec Ideal S100000x128 .f32) (w : FVec Ideal S128x128 .f32) (vals : FVec Ideal S1600000 .f32)
    (rows cols : IVec S1600000 32) : FVec Ideal S100000x128 .f32 :=
  fun i => ∑ e : Fin 1600000, hot (BitVec.ofNat 32 (i 0).val) (rows (ix1 e))
    (vals (ix1 e) * hmat x w (ix2 ⟨(cols (ix1 e)).toNat % 100000, Nat.mod_lt _ (by norm_num)⟩ (i 1)))

end Cert.Val

end
-- ==== Proof.Val.Host.lean ====
import proofs.«418018_j53446573032075_1_alg».proof.Proof.Gen.KernelIdeal.Regions
import proofs.«418018_j53446573032075_1_alg».proof.Proof.Val.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.Val

open Cert.KernelIdeal Cert.KernelIdeal.Gen Idealize.ShloMosaic Idealize.ShloMosaic.TcCoe Idealize.ShloMosaic.ValueIdx
open Idealize.SL.Sem

-- an edge array padded behind to 1601536 entries and read as one row
private theorem padRow_apply {α : Type} (x : S1600000.Idx → α) (v : S_.Idx → α) (i : S1x1601536.Idx) :
    shapeCast S1x1601536 (pad S1601536 ![0] ![1536] ![0] x v pads_S1600000_S1601536_015360 h_S_)
        shapeCasts_S1601536_S1x1601536 i
      = if h : (i 1).val < 1600000 then x (ix1 ⟨(i 1).val, h⟩) else v ix0 := by
  refine ((congrArg _ (eq_ix2 i)).trans (shapeCast_a_1a_apply _ _ (i 0) (i 1))).trans ?_
  split
  · next h =>
    exact pad_apply_of_inside _ _ _ x v _ h_S_ _ (ix1 ⟨(i 1).val, h⟩) fun a => by
      obtain rfl : a = 0 := Subsingleton.elim _ _
      show (i 1).val = 0 + (i 1).val * (0 + 1)
      omega
  · next h =>
    refine (pad_apply_of_not_inside _ _ _ x v _ h_S_ _ (0 : Fin 1) fun hh => h ?_).trans (congrArg v (eq_ix0 _))
    have : ((i 1).val - 0) / (0 + 1) < 1600000 := hh.2.2
    omega

-- a node array padded below to 100352 rows
private theorem padBelow_apply {α : Type} (x : S100000x128.Idx → α) (v : S_.Idx → α) (i : S100352x128.Idx) :
    pad S100352x128 ![0, 0] ![352, 0] ![0, 0] x v pads_S100000x128_S100352x128_03520_000 h_S_ i
      = if h : (i 0).val < 100000 then x (ix2 ⟨(i 0).val, h⟩ (i 1)) else v ix0 := by
  split
  · next h =>
    exact pad_apply_of_inside _ _ _ x v _ h_S_ _ (ix2 ⟨(i 0).val, h⟩ (i 1)) fun a => by
      match a with
      | ⟨0, _⟩ => show (i 0).val = 0 + (i 0).val * (0 + 1); omega
      | ⟨1, _⟩ => show (i 1).val = 0 + (i 1).val * (0 + 1); omega
  · next h =>
    refine (pad_apply_of_not_inside _ _ _ x v _ h_S_ _ (0 : Fin 2) fun hh => h ?_).trans (congrArg v (eq_ix0 _))
    have : ((i 0).val - 0) / (0 + 1) < 100000 := hh.2.2
    omega

variable (m : (ℓ : Loc nD τ sig) → Buf (Elt Ideal) ℓ) (outs : Outs (F := Ideal)) (c : Dev nD)

theorem V9_cols : (V9 m outs c main_v4 : IVec S1x1601536 32) = padIdx (m ((c : Thread nD τ).loc main_arg4)) := by
  rw [V9_of m outs c main_v4 (by decide)]
  dsimp only [V8, hostOps1_6]
  after_results
  exact funext fun i => padRow_apply _ _ i

theorem V9_vals : (V9 m outs c main_v6 : FVec Ideal S1x1601536 .f32) = padVals (m ((c : Thread nD τ).loc main_arg2)) := by
  rw [V9_of m outs c main_v6 (by decide)]
  dsimp only [V8, hostOps1_6]
  after_results
  refine funext fun i => (padRow_apply _ _ i).trans ?_
  unfold padVals
  rw [← Ideal.ofBits_zero_f32]
  rfl

theorem V9_hpad : (V9 m outs c main_v7 : FVec Ideal S100352x128 .f32) = padRows (outs 1 main_v0 c) := by
  dsimp only [V9, hostOps1_7]
  after_results
  refine funext fun i => (padBelow_apply _ _ i).trans ?_
  unfold padRows
  rw [← sitofp_zero (φ := .f32)]
  rfl

theorem V10_rows : (V10 m outs c main_v5 : IVec S1x1601536 32) = padIdx (m ((c : Thread nD τ).loc main_arg3)) := by
  rw [V10_of m outs c main_v5 (by decide), V9_of m outs c main_v5 (by decide)]
  dsimp only [V8, hostOps1_6]
  after_results
  exact funext fun i => padRow_apply _ _ i

theorem V10_msgs : V10 m outs c main_v8 = outs 10 main_v8 c :=
  Function.update_self _ _ _

theorem V12_out : (V12 m outs c main_v10 : FVec Ideal S100000x128 .f32) = firstRows (outs 11 main_v9 c) := by
  dsimp only [V12, hostOps3]
  after_results
  exact funext fun i => (congrArg _ (eq_ix2 i)).trans (slice2_axis0_apply 0 _ _ (i 0) (i 1) _ (Nat.zero_add _).symm)

end Cert.Val

end
-- ==== Proof.Val.Pay.lean ====
import proofs.«418018_j53446573032075_1_alg».proof.Proof.Gen.KernelIdeal.Skeleton
import proofs.«418018_j53446573032075_1_alg».proof.Proof.Val.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Val

open Idealize.ShloMosaic Idealize.ShloMosaic.ValueIdx
open Cert.KernelIdeal Cert.KernelIdeal.Gen

-- the comparison bit is 0 or 1, and converting it is exact
theorem sitofp_eq_bit (a b : BitVec 32) :
    FloatOps.sitofp (F := Ideal) .f32 ((IntOp.cmpi .eq a b).setWidth 32) = hot a b 1 := by
  show (((((IntOp.cmpi .eq a b).setWidth 32).toInt : ℤ) : ℝ) : EReal) = hot a b 1
  unfold hot IntOp.cmpi
  by_cases h : a = b
  · subst h
    simp
  · rw [if_neg h]
    have : (a == b) = false := by simpa using h
    simp [this]

-- entry (r, e) of the selection matrix of node block k: one where node k·1024 + r is edge e's index word
theorem onehot_apply (k : ℕ) (cols : Vec Ideal S1x4096 .i32) (r : Fin 1024) (e : Fin 4096) :
    (truncf .bf16 (sitofp .f32 (extui 32 (cmpi .eq
        (broadcastTo S1024x4096 (addi (broadcast S1024x1 (Scalar.muli (BitVec.ofNat 32 k) 1024#32)) (iota .tc S1024x1 32 [0] iota_S1024x1_d0_w32)) broadcasts_S1024x1_S1024x4096)
        (broadcastTo S1024x4096 (shapeCast S1x4096 cols shapeCasts_S1x4096_S1x4096) broadcasts_S1x4096_S1024x4096)) natLt_1_32)) bitsLt_bf16_f32
      : FVec Ideal S1024x4096 .bf16) (ix2 r e)
      = hot (BitVec.ofNat 32 (k * 1024 + r.val)) (cols (ix2 0 e)) 1 := by
  refine (sitofp_eq_bit _ _).trans (congrArg₂ (hot · · 1) ?_ ?_)
  · refine (broadcastTo_apply _ _ (ix2 r e) (ix2 r (0 : Fin 1)) fun ax => match ax with | ⟨0, _⟩ => rfl | ⟨1, _⟩ => rfl).trans ?_
    show BitVec.ofNat 32 k * 1024#32 + iota .tc S1024x1 32 [0] iota_S1024x1_d0_w32 (ix2 r 0) = _
    rw [iota_single_apply, BitVec.ofNat_add, BitVec.ofNat_mul]
  · rw [broadcastTo_1b_ab_apply, shapeCast_self]

-- a product into a zero accumulator over one contracted axis of extent n, the operands' indices named
theorem dot_apply {sl sr so : Shape} {φ₁ φ₂ : FTy} (D : DotDims sl sr so) (n : ℕ) (hr : D.contr.rank = 1)
    (hs : D.contr.size ⟨0, by omega⟩ = n) (A : FVec Ideal sl φ₁) (B : FVec Ideal sr φ₂) (j : so.Idx)
    (L : Fin n → sl.Idx) (R : Fin n → sr.Idx)
    (hl : ∀ k, D.lhsIdx j ((contrEquiv1 D n hr hs).symm k) = L k)
    (hR : ∀ k, D.rhsIdx j ((contrEquiv1 D n hr hs).symm k) = R k) :
    FloatOps.matmul D none A B (constant so .f32 0x00000000#32) j = ∑ k : Fin n, A (L k) * B (R k) := by
  rw [Ideal.matmul_constant_zero_apply, ← Equiv.sum_comp (contrEquiv1 D n hr hs).symm]
  exact Finset.sum_congr rfl fun k _ => by rw [hl, hR]

theorem pay0_apply (x : Vec Ideal S2000x128 .f32) (w : Vec Ideal S128x128 .f32) (p : Fin 2000) (q : Fin 128) :
    k0_pay1 (F := Ideal) x w (ix2 p q) = ∑ k : Fin 128, x (ix2 p k) * w (ix2 k q) :=
  dot_apply dot_S2000x128_S128x128_S2000x128_1_0_0_1_n_n 128 rfl rfl _ _ _ (ix2 p ·) (ix2 · q)
    (fun _ => Shape.idx_ext₂ rfl rfl) (fun _ => Shape.idx_ext₂ rfl rfl)

theorem pay1_reset (y : S4096x128.Idx) : k1_pay1 (F := Ideal) y = 0 := by
  unfold k1_pay1
  exact (congrFun (shapeCast_self _ _) y).trans Ideal.ofBits_zero_f32

theorem pay1_apply (i : grid1.Coords) (cols : Vec Ideal S1x4096 .i32) (vals : Vec Ideal S1x4096 .f32)
    (hb : Vec Ideal S1024x128 .f32) (acc : Vec Ideal S4096x128 .f32) (e : Fin 4096) (j : Fin 128) :
    k1_pay2 (F := Ideal) i cols vals hb acc (ix2 e j)
      = acc (ix2 e j) + ∑ r : Fin 1024, hot (BitVec.ofNat 32 ((i 1).val * 1024 + r.val)) (cols (ix2 0 e)) (vals (ix2 0 e)) * hb (ix2 r j) := by
  unfold k1_pay2
  refine (congrFun (shapeCast_self _ _) (ix2 e j)).trans ?_
  refine congrArg (acc (ix2 e j) + ·) ?_
  refine (dot_apply dot_S1024x4096_S1024x128_S4096x128_0_0_1_1_n_n 1024 rfl rfl _ _ _ (ix2 · e) (ix2 · j)
    (fun _ => Shape.idx_ext₂ rfl rfl) (fun _ => Shape.idx_ext₂ rfl rfl)).trans (Finset.sum_congr rfl fun r _ => ?_)
  refine congrArg₂ (· * ·) ((congrArg₂ (· * ·) (onehot_apply (i 1).val cols r e) ?_).trans (hot_one_mul _ _ _)) ?_
  · exact (broadcastTo_1b_ab_apply _ _ r e).trans (congrFun (shapeCast_self vals _) (ix2 0 e))
  · exact congrFun (shapeCast_self hb _) (ix2 r j)

theorem pay1_out (v : Vec Ideal S4096x128 .f32) : k1_pay3 (F := Ideal) v = v := rfl

theorem pay2_reset (y : S1024x128.Idx) : k2_pay1 (F := Ideal) y = 0 := by
  unfold k2_pay1
  exact (congrFun (shapeCast_self _ _) y).trans Ideal.ofBits_zero_f32

theorem pay2_apply (i : grid2.Coords) (rows : Vec Ideal S1x4096 .i32) (ms : Vec Ideal S4096x128 .bf16)
    (acc : Vec Ideal S1024x128 .f32) (r : Fin 1024) (j : Fin 128) :
    k2_pay2 (F := Ideal) i rows ms acc (ix2 r j)
      = acc (ix2 r j) + ∑ e : Fin 4096, hot (BitVec.ofNat 32 ((i 0).val * 1024 + r.val)) (rows (ix2 0 e)) 1 * ms (ix2 e j) := by
  unfold k2_pay2
  refine (congrFun (shapeCast_self _ _) (ix2 r j)).trans ?_
  refine congrArg (acc (ix2 r j) + ·) ?_
  refine (dot_apply dot_S1024x4096_S4096x128_S1024x128_1_0_0_1_n_n 4096 rfl rfl _ _ _ (ix2 r ·) (ix2 · j)
    (fun _ => Shape.idx_ext₂ rfl rfl) (fun _ => Shape.idx_ext₂ rfl rfl)).trans (Finset.sum_congr rfl fun e _ => ?_)
  exact congrArg₂ (· * ·) (onehot_apply (i 0).val rows r e) (congrFun (shapeCast_self ms _) (ix2 e j))

end Cert.Val

end
-- ==== Proof.Val.Arr0.lean ====
import proofs.«418018_j53446573032075_1_alg».proof.Proof.KI.Reg0
import proofs.«418018_j53446573032075_1_alg».proof.Proof.KI.Sched
import proofs.«418018_j53446573032075_1_alg».proof.Proof.Val.Pay
import proofs.«418018_j53446573032075_1_alg».proof.Proof.Val.Spec
import Idealize.ShloMosaic.Lib.Pipeline.Value
import Idealize.ShloMosaic.Lib.ValueIdx

noncomputable section

namespace Cert.Val

open Idealize.ShloMosaic Idealize.ShloMosaic.TcCoe Idealize.ShloMosaic.ValueIdx Idealize.ShloMosaic.Pipeline
open Cert.KernelIdeal Cert.KernelIdeal.Gen Cert.KernelIdeal.Hand

variable (V : (c : Dev nD) → (b : Ref sig .tc) → Buf (Elt Ideal) ((c : Thread nD τ).loc b))

namespace Arr0

theorem zero_offsets : (![0, 0] : Fin 2 → Nat) = fun _ => 0 := funext fun a => by fin_cases a <;> rfl

theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- point t stores rows 2000·t … 2000·t + 1999 of x·W
theorem flushed0_eq (c : Dev nD) (t : Fin cfg0.N) :
    (dat0 (F := Ideal) V c).flushed 2 t = ((cfg0.win 2).blk t).view.read (Elt Ideal) (hmat (V c main_arg0) (V c main_arg1)) := by
  show (cfg0.win 2).cut (grid0.coords t) ((dat0 (F := Ideal) V c).after 2 t) = _
  rw [after0_2]
  unfold out0_2
  rw [View.canon_unit_zero zero_offsets]
  simp only [View.ld_unit_zero (S := S2000x128) zero_offsets, View.ld_unit_zero (S := S128x128) zero_offsets]
  obtain ⟨e00, e01, e10, e11, e20, e21⟩ := index0 t
  funext j
  obtain ⟨p, q, rfl⟩ : ∃ (p : Fin 2000) (q : Fin 128), j = ix2 p q := ⟨j 0, j 1, eq_ix2 j⟩
  refine (pay0_apply _ _ p q).trans ?_
  show _ = hmat (V c main_arg0) (V c main_arg1) (((cfg0.win 2).blk t).view.emb (ix2 p q))
  unfold hmat
  refine Finset.sum_congr rfl fun k _ => congrArg₂ (fun a b : EReal => a * b)
    (congrArg (V c main_arg0) (Shape.idx_ext₂ ?_ ?_)) (congrArg (V c main_arg1) (Shape.idx_ext₂ ?_ ?_))
  · show win0_0.index t (0 : Fin 2) * 2000 + 1 * p.val = win0_2.index t (0 : Fin 2) * 2000 + 1 * p.val
    rw [e00, e20]
  · show win0_0.index t (1 : Fin 2) * 128 + 1 * k.val = k.val
    rw [e01]; omega
  · show win0_1.index t (0 : Fin 2) * 128 + 1 * k.val = k.val
    rw [e10]; omega
  · show win0_1.index t (1 : Fin 2) * 128 + 1 * q.val = win0_2.index t (1 : Fin 2) * 128 + 1 * q.val
    rw [e11, e21]

theorem cover0 (i : S100000x128.Idx) : ∃ t : Fin cfg0.N, (cfg0.win 2).flush t = true ∧ i ∈ ((cfg0.win 2).blk t).view.set := by
  have hN : cfg0.N = 50 := N_0
  have hi0 : (i 0).val < 100000 := (i 0).isLt
  have hi1 : (i 1).val < 128 := (i 1).isLt
  let t : Fin cfg0.N := ⟨(i 0).val / 2000, by rw [hN]; omega⟩
  refine ⟨t, flush0_2 t, ?_⟩
  obtain ⟨-, -, -, -, e0, e1⟩ := index0 t
  show i ∈ ((View.whole main_v0).slice (win0_2.rect t)).set
  rw [View.set_slice_whole, Rect.mem_set_unit]
  intro a
  match a with
  | ⟨0, _⟩ =>
    show win0_2.index t (0 : Fin 2) * 2000 ≤ (i 0).val ∧ (i 0).val < win0_2.index t (0 : Fin 2) * 2000 + 2000
    rw [e0]
    show (i 0).val / 2000 * 2000 ≤ (i 0).val ∧ (i 0).val < (i 0).val / 2000 * 2000 + 2000
    omega
  | ⟨1, _⟩ =>
    show win0_2.index t (1 : Fin 2) * 128 ≤ (i 1).val ∧ (i 1).val < win0_2.index t (1 : Fin 2) * 128 + 128
    rw [e1]; omega

end Arr0

open Arr0

theorem h_final (c : Dev nD) : (dat0 (F := Ideal) V c).arrAt 2 cfg0.N = hmat (V c main_arg0) (V c main_arg1) :=
  (dat0 (F := Ideal) V c).arrAt_eq_of_cover 2 _ (fun t _ => flushed0_eq V c t) cover0

end Cert.Val

end
-- ==== Proof.Val.Fold.lean ====
import proofs.«418018_j53446573032075_1_alg».proof.Proof.Val.Pay
import proofs.«418018_j53446573032075_1_alg».proof.Proof.KI.Sched
import proofs.«418018_j53446573032075_1_alg».proof.Proof.Gen.KernelIdeal.Launch
import Idealize.ShloMosaic.Lib.Pipeline.Value

noncomputable section

namespace Cert.Val

open Idealize.ShloMosaic Idealize.ShloMosaic.ValueIdx
open Cert.KernelIdeal Cert.KernelIdeal.Gen

def pt1 (q : Fin 391) (s : Fin 98) : Fin cfg1.N :=
  ⟨98 * q.val + s.val, lt_of_lt_of_eq (by have := q.isLt; have := s.isLt; omega) N_1.symm⟩
def pt2 (p : Fin 98) (s : Fin 391) : Fin cfg2.N :=
  ⟨391 * p.val + s.val, lt_of_lt_of_eq (by have := p.isLt; have := s.isLt; omega) N_2.symm⟩

-- a running value reset to zero at the multiples of J, to which every point adds its addend: at offset j of run q it is the sum of the run's addends so far
theorem fold_sum {ι : Type} {N : ℕ} (J : ℕ) (f : (n : ℕ) → n < N → ι → EReal)
    (g : (n : ℕ) → n < N → (ι → EReal) → ι → EReal) (z : ι → EReal) (M : (n : ℕ) → n < N → ι → EReal)
    (hz : ∀ i, z i = 0) (hg : ∀ n h acc i, g n h acc i = acc i + M n h i)
    (h0 : ∀ t : Fin N, t.val % J = 0 → f t.val t.isLt = g t.val t.isLt z)
    (hs : ∀ t : Fin N, t.val % J ≠ 0 → f t.val t.isLt = g t.val t.isLt (f (t.val - 1) (Nat.lt_of_le_of_lt (Nat.sub_le _ _) t.isLt)))
    (q j : ℕ) (hj : j < J) (h : J * q + j < N) (i : ι) :
    f (J * q + j) h i = ∑ s : Fin (j + 1), M (J * q + s.val) (by have := s.isLt; omega) i := by
  rw [Pipeline.eq_accAt f J (fun n h => g n h z) g (fun n h hm => h0 ⟨n, h⟩ hm) (fun n h hm => hs ⟨n + 1, h⟩ hm) q j hj h,
    Pipeline.accAt_add_apply _ g (fun _ => 0) (fun n i => if h : n < N then M n h i else 0) (J * q) j
      (fun h i => by simp only [hg, hz, dif_pos h]) (fun n h acc i _ _ => by simp only [hg, dif_pos h]) j le_rfl h i,
    zero_add, Finset.sum_range]
  exact Finset.sum_congr rfl fun s _ => dif_pos _

theorem fold1 (b0 : Fin cfg1.N → Vec Ideal S1x4096 .i32) (b1 : Fin cfg1.N → Vec Ideal S1x4096 .f32) (b2 : Fin cfg1.N → Vec Ideal S1024x128 .f32)
    (f : (n : ℕ) → n < cfg1.N → Vec Ideal S4096x128 .f32)
    (h0 : ∀ t : Fin cfg1.N, t.val % 98 = 0 → f t.val t.isLt = k1_pay2 (F := Ideal) (grid1.coords t) (b0 t) (b1 t) (b2 t) (k1_pay1 (F := Ideal)))
    (hs : ∀ t : Fin cfg1.N, t.val % 98 ≠ 0 → f t.val t.isLt = k1_pay2 (F := Ideal) (grid1.coords t) (b0 t) (b1 t) (b2 t) (f (t.val - 1) (Nat.lt_of_le_of_lt (Nat.sub_le _ _) t.isLt)))
    (q : Fin 391) (e : Fin 4096) (j : Fin 128) :
    f (pt1 q 97).val (pt1 q 97).isLt (ix2 e j)
      = ∑ s : Fin 98, ∑ r : Fin 1024, hot (BitVec.ofNat 32 (s.val * 1024 + r.val)) (b0 (pt1 q s) (ix2 0 e)) (b1 (pt1 q s) (ix2 0 e)) * b2 (pt1 q s) (ix2 r j) := by
  refine (fold_sum 98 f (fun n h => k1_pay2 (F := Ideal) (grid1.coords ⟨n, h⟩) (b0 ⟨n, h⟩) (b1 ⟨n, h⟩) (b2 ⟨n, h⟩)) (k1_pay1 (F := Ideal))
    (fun n h i => ∑ r : Fin 1024, hot (BitVec.ofNat 32 (n % 98 * 1024 + r.val)) (b0 ⟨n, h⟩ (ix2 0 (i 0))) (b1 ⟨n, h⟩ (ix2 0 (i 0))) * b2 ⟨n, h⟩ (ix2 r (i 1)))
    pay1_reset (fun n h acc i => ?_) h0 hs q.val 97 (by decide) (pt1 q 97).isLt (ix2 e j)).trans (Finset.sum_congr rfl fun s _ => ?_)
  · obtain ⟨e, j, rfl⟩ : ∃ (e : Fin 4096) (j : Fin 128), i = ix2 e j := ⟨i 0, i 1, eq_ix2 i⟩
    rw [pay1_apply, Hand.coords1_1]
  · show ∑ r : Fin 1024, hot (BitVec.ofNat 32 ((98 * q.val + s.val) % 98 * 1024 + r.val)) _ _ * _ = _
    rw [Nat.mul_add_mod, Nat.mod_eq_of_lt s.isLt]
    rfl

theorem fold2 (b0 : Fin cfg2.N → Vec Ideal S1x4096 .i32) (b1 : Fin cfg2.N → Vec Ideal S4096x128 .bf16)
    (f : (n : ℕ) → n < cfg2.N → Vec Ideal S1024x128 .f32)
    (h0 : ∀ t : Fin cfg2.N, t.val % 391 = 0 → f t.val t.isLt = k2_pay2 (F := Ideal) (grid2.coords t) (b0 t) (b1 t) (k2_pay1 (F := Ideal)))
    (hs : ∀ t : Fin cfg2.N, t.val % 391 ≠ 0 → f t.val t.isLt = k2_pay2 (F := Ideal) (grid2.coords t) (b0 t) (b1 t) (f (t.val - 1) (Nat.lt_of_le_of_lt (Nat.sub_le _ _) t.isLt)))
    (p : Fin 98) (r : Fin 1024) (j : Fin 128) :
    f (pt2 p 390).val (pt2 p 390).isLt (ix2 r j)
      = ∑ s : Fin 391, ∑ e : Fin 4096, hot (BitVec.ofNat 32 (p.val * 1024 + r.val)) (b0 (pt2 p s) (ix2 0 e)) 1 * b1 (pt2 p s) (ix2 e j) := by
  refine (fold_sum 391 f (fun n h => k2_pay2 (F := Ideal) (grid2.coords ⟨n, h⟩) (b0 ⟨n, h⟩) (b1 ⟨n, h⟩)) (k2_pay1 (F := Ideal))
    (fun n h i => ∑ e : Fin 4096, hot (BitVec.ofNat 32 (n / 391 * 1024 + (i 0).val)) (b0 ⟨n, h⟩ (ix2 0 e)) 1 * b1 ⟨n, h⟩ (ix2 e (i 1)))
    pay2_reset (fun n h acc i => ?_) h0 hs p.val 390 (by decide) (pt2 p 390).isLt (ix2 r j)).trans (Finset.sum_congr rfl fun s _ => ?_)
  · obtain ⟨r, j, rfl⟩ : ∃ (r : Fin 1024) (j : Fin 128), i = ix2 r j := ⟨i 0, i 1, eq_ix2 i⟩
    rw [pay2_apply, Hand.coords2_0]
  · show ∑ e : Fin 4096, hot (BitVec.ofNat 32 ((391 * p.val + s.val) / 391 * 1024 + r.val)) _ _ * _ = _
    rw [show (391 * p.val + s.val) / 391 = p.val from by have := s.isLt; omega]
    rfl

end Cert.Val

end
-- ==== Proof.Val.Arr1.lean ====
import proofs.«418018_j53446573032075_1_alg».proof.Proof.KI.Reg1
import proofs.«418018_j53446573032075_1_alg».proof.Proof.KI.Sched
import proofs.«418018_j53446573032075_1_alg».proof.Proof.Val.Pay
import proofs.«418018_j53446573032075_1_alg».proof.Proof.Val.Fold
import proofs.«418018_j53446573032075_1_alg».proof.Proof.Val.Spec
import Idealize.ShloMosaic.Lib.Pipeline.Value
import Idealize.ShloMosaic.Lib.ValueIdx

noncomputable section

namespace Cert.Val

open Idealize.ShloMosaic Idealize.ShloMosaic.TcCoe Idealize.ShloMosaic.ValueIdx Idealize.ShloMosaic.Pipeline
open Cert.KernelIdeal Cert.KernelIdeal.Gen Cert.KernelIdeal.Hand

variable (V : (c : Dev nD) → (b : Ref sig .tc) → Buf (Elt Ideal) ((c : Thread nD τ).loc b))

theorem index1_0 (t : Fin cfg1.N) : win1_0.index t = ![0, t.val / 98] := by
  show ![0, (BitVec.ofNat 32 _).toNat] = _
  rw [BitVec.toNat_ofNat, coords1_0, Nat.mod_eq_of_lt (by have := lt1 t; omega)]

theorem index1_1 (t : Fin cfg1.N) : win1_1.index t = ![0, t.val / 98] := by
  show ![0, (BitVec.ofNat 32 _).toNat] = _
  rw [BitVec.toNat_ofNat, coords1_0, Nat.mod_eq_of_lt (by have := lt1 t; omega)]

theorem index1_2 (t : Fin cfg1.N) : win1_2.index t = ![t.val % 98, 0] := by
  show ![(BitVec.ofNat 32 _).toNat, 0] = _
  rw [BitVec.toNat_ofNat, coords1_1, Nat.mod_eq_of_lt (by omega)]

-- the 100352 padded nodes are 98 blocks of 1024
theorem sum_nodes (g : Fin 100352 → EReal) :
    ∑ n : Fin 100352, g n = ∑ s : Fin 98, ∑ r : Fin 1024, g ⟨s.val * 1024 + r.val, by have := s.isLt; have := r.isLt; omega⟩ := by
  rw [← Fintype.sum_prod_type']
  show ∑ n : Fin (98 * 1024), g n = _
  rw [← Equiv.sum_comp (finProdFinEquiv (m := 98) (n := 1024)) g]
  refine Finset.sum_congr rfl fun x _ => ?_
  congr 1
  apply Fin.ext
  show x.2.val + 1024 * x.1.val = x.1.val * 1024 + x.2.val
  omega

-- after the last point of edge block q the accumulator holds the block's messages: the blocks the 98 points read are slices of the arrays
theorem acc_last (c : Dev nD) (t : Fin cfg1.N) (q : Fin 391) (ht : t.val = 98 * q.val + 97) (y : S4096x128.Idx) (k : S1601536x128.Idx)
    (hk0 : (k 0).val = 4096 * q.val + (y 0).val) (hk1 : (k 1).val = (y 1).val) :
    (outsAt1 V c t.val t.isLt).2 y = msgsOf (V c main_v4) (V c main_v6) (V c main_v7) k := by
  obtain rfl : t = pt1 q 97 := Fin.ext ht
  obtain ⟨e, j, rfl⟩ : ∃ (e : Fin 4096) (j : Fin 128), y = ix2 e j := ⟨y 0, y 1, eq_ix2 y⟩
  have hk0 : (k 0).val = 4096 * q.val + e.val := hk0
  have hk1 : (k 1).val = j.val := hk1
  have hq := q.isLt
  rw [fold1 (fun t => iblk1 V c 0 t) (fun t => iblk1 V c 1 t) (fun t => iblk1 V c 2 t)
    (fun n hn => (outsAt1 V c n hn).2) (fun t h => sc1_first V c t h) (fun t h => sc1_next V c t h) q e j]
  unfold msgsOf
  rw [sum_nodes]
  refine Finset.sum_congr rfl fun s _ => Finset.sum_congr rfl fun r _ => ?_
  have hs := s.isLt
  have i0 := index1_0 (pt1 q s)
  have i1 := index1_1 (pt1 q s)
  have i2 := index1_2 (pt1 q s)
  rw [show (pt1 q s).val / 98 = q.val from by show (98 * q.val + s.val) / 98 = q.val; omega] at i0 i1
  rw [show (pt1 q s).val % 98 = s.val from by show (98 * q.val + s.val) % 98 = s.val; omega] at i2
  refine congrArg₂ (fun a b : EReal => a * b) (congrArg₂ (hot _) (congrArg (V c main_v4) (Shape.idx_ext₂ ?_ ?_))
    (congrArg (V c main_v6) (Shape.idx_ext₂ ?_ ?_))) (congrArg (V c main_v7) (Shape.idx_ext₂ ?_ ?_))
  · show win1_0.index (pt1 q s) 0 * 1 + 1 * 0 = 0
    rw [i0]; rfl
  · show win1_0.index (pt1 q s) 1 * 4096 + 1 * e.val = (k 0).val
    rw [i0, hk0]; show q.val * 4096 + 1 * e.val = _; omega
  · show win1_1.index (pt1 q s) 0 * 1 + 1 * 0 = 0
    rw [i1]; rfl
  · show win1_1.index (pt1 q s) 1 * 4096 + 1 * e.val = (k 0).val
    rw [i1, hk0]; show q.val * 4096 + 1 * e.val = _; omega
  · show win1_2.index (pt1 q s) 0 * 1024 + 1 * r.val = s.val * 1024 + r.val
    rw [i2]; show s.val * 1024 + 1 * r.val = _; omega
  · show win1_2.index (pt1 q s) 1 * 128 + 1 * j.val = (k 1).val
    rw [i2, hk1]; show 0 * 128 + 1 * j.val = j.val; omega

-- a block agreeing entry by entry with an array, each entry at its place, is that array's block
theorem blk3_ext (t : Fin cfg1.N) (X : Vec Ideal S4096x128 .bf16) (G : S1601536x128.Idx → EReal)
    (h : ∀ (y : S4096x128.Idx) (k : S1601536x128.Idx), (k 0).val = 4096 * (t.val / 98) + (y 0).val → (k 1).val = (y 1).val → X y = G k) :
    (cfg1.win 3).cut (grid1.coords t) X = ((cfg1.win 3).blk t).view.read (Elt Ideal) G := by
  have hi : win1_3.index t 0 = t.val / 98 ∧ win1_3.index t 1 = 0 := by rw [index1_3]; exact ⟨rfl, rfl⟩
  funext y
  show X y = G (((cfg1.win 3).blk t).view.emb y)
  refine h y _ ?_ ?_
  · show win1_3.index t 0 * 4096 + 1 * (y 0).val = 4096 * (t.val / 98) + (y 0).val; rw [hi.1]; omega
  · show win1_3.index t 1 * 128 + 1 * (y 1).val = (y 1).val; rw [hi.2]; omega

theorem flushed1_eq (c : Dev nD) (t : Fin cfg1.N) (hf : (cfg1.win 3).flush t = true) :
    (dat1 (F := Ideal) V c).flushed 3 t
      = ((cfg1.win 3).blk t).view.read (Elt Ideal) (msgsOf (V c main_v4) (V c main_v6) (V c main_v7)) := by
  have h97 : t.val % 98 = 97 := (flush1_3_iff t).mp hf
  have hN := lt1 t
  show (cfg1.win 3).cut (grid1.coords t) ((dat1 (F := Ideal) V c).after 3 t) = _
  rw [after1_3, out1_last V c t h97, pay1_out]
  exact blk3_ext t _ _ fun y k hk0 hk1 =>
    acc_last V c t ⟨t.val / 98, by omega⟩ (by show t.val = 98 * (t.val / 98) + 97; omega) y k hk0 hk1

theorem cover1 (i : S1601536x128.Idx) :
    ∃ t : Fin cfg1.N, (cfg1.win 3).flush t = true ∧ i ∈ ((cfg1.win 3).blk t).view.set := by
  have h0 : (i 0).val < 1601536 := (i 0).isLt
  have h1 : (i 1).val < 128 := (i 1).isLt
  have hq : (i 0).val / 4096 < 391 := by omega
  let t := pt1 ⟨(i 0).val / 4096, hq⟩ 97
  refine ⟨t, (flush1_3_iff _).mpr (by show (98 * ((i 0).val / 4096) + 97) % 98 = 97; omega), ?_⟩
  have hi : win1_3.index t 0 = (i 0).val / 4096 ∧ win1_3.index t 1 = 0 := by
    rw [index1_3]; refine ⟨?_, rfl⟩; show (98 * ((i 0).val / 4096) + 97) / 98 = (i 0).val / 4096; omega
  show i ∈ ((View.whole main_v8).slice (win1_3.rect t)).set
  rw [View.set_slice_whole, Rect.mem_set_unit]
  intro a
  match a with
  | ⟨0, _⟩ => show win1_3.index t 0 * 4096 ≤ (i 0).val ∧ (i 0).val < win1_3.index t 0 * 4096 + 4096; rw [hi.1]; omega
  | ⟨1, _⟩ => show win1_3.index t 1 * 128 ≤ (i 1).val ∧ (i 1).val < win1_3.index t 1 * 128 + 128; rw [hi.2]; omega

theorem msgs_final (c : Dev nD) :
    (dat1 (F := Ideal) V c).arrAt 3 cfg1.N = msgsOf (V c main_v4) (V c main_v6) (V c main_v7) :=
  (dat1 (F := Ideal) V c).arrAt_eq_of_cover 3 _ (flushed1_eq V c) cover1

end Cert.Val

end
-- ==== Proof.Val.Arr2.lean ====
import proofs.«418018_j53446573032075_1_alg».proof.Proof.KI.Reg2
import proofs.«418018_j53446573032075_1_alg».proof.Proof.KI.Sched
import proofs.«418018_j53446573032075_1_alg».proof.Proof.Val.Pay
import proofs.«418018_j53446573032075_1_alg».proof.Proof.Val.Fold
import proofs.«418018_j53446573032075_1_alg».proof.Proof.Val.Spec
import Idealize.ShloMosaic.Lib.Pipeline.Value
import Idealize.ShloMosaic.Lib.ValueIdx

noncomputable section

namespace Cert.Val

open Idealize.ShloMosaic Idealize.ShloMosaic.TcCoe Idealize.ShloMosaic.ValueIdx Idealize.ShloMosaic.Pipeline
open Cert.KernelIdeal Cert.KernelIdeal.Gen Cert.KernelIdeal.Hand

variable (V : (c : Dev nD) → (b : Ref sig .tc) → Buf (Elt Ideal) ((c : Thread nD τ).loc b))

theorem winIndex2_0 (t : Fin cfg2.N) : win2_0.index t = ![0, t.val % 391] := by
  show ![0, (BitVec.ofNat 32 _).toNat] = _
  rw [BitVec.toNat_ofNat, coords2_1, Nat.mod_eq_of_lt (by omega)]

theorem winIndex2_1 (t : Fin cfg2.N) : win2_1.index t = ![t.val % 391, 0] := by
  show ![(BitVec.ofNat 32 _).toNat, 0] = _
  rw [BitVec.toNat_ofNat, coords2_1, Nat.mod_eq_of_lt (by omega)]

-- the 1601536 padded edges are 391 blocks of 4096
theorem sum_edgeBlocks2 (g : Fin 1601536 → EReal) :
    ∑ s : Fin 391, ∑ e : Fin 4096, g ⟨4096 * s.val + e.val, by have := s.isLt; have := e.isLt; omega⟩ = ∑ k : Fin 1601536, g k := by
  rw [← Fintype.sum_prod_type']
  exact Fintype.sum_equiv (finProdFinEquiv.trans (finCongr (by norm_num : 391 * 4096 = 1601536))) _ _
    (fun x => congrArg g (Fin.ext (by
      show 4096 * x.1.val + x.2.val = x.2.val + 4096 * x.1.val
      omega)))

theorem outBlk2_ext (t : Fin cfg2.N) (X : Vec Ideal S1024x128 .f32) (G : S100352x128.Idx → EReal)
    (h : ∀ (r : Fin 1024) (j : Fin 128), X (ix2 r j) = G (((cfg2.win 2).blk t).view.emb (ix2 r j))) :
    (cfg2.win 2).cut (grid2.coords t) X = ((cfg2.win 2).blk t).view.read (Elt Ideal) G := by
  funext y
  obtain ⟨r, j, rfl⟩ : ∃ (r : Fin 1024) (j : Fin 128), y = ix2 r j := ⟨y 0, y 1, eq_ix2 y⟩
  exact h r j

-- what the last point of node block p leaves is the block's scatter sums: the blocks its 391 points read are slices of the arrays
theorem flushed2_eq (c : Dev nD) (t : Fin cfg2.N) (hf : (cfg2.win 2).flush t = true) :
    (dat2 (F := Ideal) V c).flushed 2 t = ((cfg2.win 2).blk t).view.read (Elt Ideal) (outpOf (V c main_v5) (V c main_v8)) := by
  have h390 : t.val % 391 = 390 := (flush2_2_iff t).mp hf
  have hlt := lt2 t
  obtain ⟨p, rfl⟩ : ∃ p : Fin 98, t = pt2 p 390 :=
    ⟨⟨t.val / 391, by omega⟩, Fin.ext (by show t.val = 391 * (t.val / 391) + 390; omega)⟩
  have hp := p.isLt
  have hi : win2_2.index (pt2 p 390) 0 = p.val ∧ win2_2.index (pt2 p 390) 1 = 0 := by
    rw [index2_2]; refine ⟨?_, rfl⟩; show (391 * p.val + 390) / 391 = p.val; omega
  show (cfg2.win 2).cut (grid2.coords (pt2 p 390)) ((dat2 (F := Ideal) V c).after 2 (pt2 p 390)) = _
  rw [after2_2, out2_last V c (pt2 p 390) h390]
  refine outBlk2_ext (pt2 p 390) _ _ fun r j => ?_
  have hr := r.isLt
  rw [show ((cfg2.win 2).blk (pt2 p 390)).view.emb (ix2 r j) = (ix2 (⟨p.val * 1024 + r.val, by omega⟩ : Fin 100352) j : S100352x128.Idx) from
    Shape.idx_ext₂ (by show win2_2.index (pt2 p 390) 0 * 1024 + 1 * r.val = p.val * 1024 + r.val; rw [hi.1]; omega)
      (by show win2_2.index (pt2 p 390) 1 * 128 + 1 * j.val = j.val; rw [hi.2]; omega),
    fold2 (fun t => iblk2 V c 0 t) (fun t => iblk2 V c 1 t) (fun n h => (outsAt2 V c n h).2)
      (fun t h => sc2_first V c t h) (fun t h => sc2_next V c t h) p r j]
  refine Eq.trans ?_ (sum_edgeBlocks2 _)
  refine Finset.sum_congr rfl fun s _ => Finset.sum_congr rfl fun e _ => ?_
  have hs := s.isLt
  have i0 := winIndex2_0 (pt2 p s)
  have i1 := winIndex2_1 (pt2 p s)
  rw [show (pt2 p s).val % 391 = s.val from by show (391 * p.val + s.val) % 391 = s.val; omega] at i0 i1
  refine congrArg₂ (fun a b : EReal => a * b) (congrArg (hot _ · 1) (congrArg (V c main_v5) (Shape.idx_ext₂ ?_ ?_))) (congrArg (V c main_v8) (Shape.idx_ext₂ ?_ ?_))
  · show win2_0.index (pt2 p s) 0 * 1 + 1 * 0 = 0
    rw [i0]; rfl
  · show win2_0.index (pt2 p s) 1 * 4096 + 1 * e.val = 4096 * s.val + e.val
    rw [i0]; show s.val * 4096 + 1 * e.val = _; omega
  · show win2_1.index (pt2 p s) 0 * 4096 + 1 * e.val = 4096 * s.val + e.val
    rw [i1]; show s.val * 4096 + 1 * e.val = _; omega
  · show win2_1.index (pt2 p s) 1 * 128 + 1 * j.val = j.val
    rw [i1]; show 0 * 128 + 1 * j.val = j.val; omega

theorem outCover2 (i : S100352x128.Idx) :
    ∃ t : Fin cfg2.N, (cfg2.win 2).flush t = true ∧ i ∈ ((cfg2.win 2).blk t).view.set := by
  have h0 : (i 0).val < 100352 := (i 0).isLt
  have h1 : (i 1).val < 128 := (i 1).isLt
  have hp : (i 0).val / 1024 < 98 := by omega
  let t := pt2 ⟨(i 0).val / 1024, hp⟩ 390
  refine ⟨t, (flush2_2_iff _).mpr (by show (391 * ((i 0).val / 1024) + 390) % 391 = 390; omega), ?_⟩
  have hi : win2_2.index t 0 = (i 0).val / 1024 ∧ win2_2.index t 1 = 0 := by
    rw [index2_2]; refine ⟨?_, rfl⟩; show (391 * ((i 0).val / 1024) + 390) / 391 = (i 0).val / 1024; omega
  show i ∈ ((View.whole main_v9).slice (win2_2.rect t)).set
  rw [View.set_slice_whole, Rect.mem_set_unit]
  intro a
  match a with
  | ⟨0, _⟩ => show win2_2.index t 0 * 1024 ≤ (i 0).val ∧ (i 0).val < win2_2.index t 0 * 1024 + 1024; rw [hi.1]; omega
  | ⟨1, _⟩ => show win2_2.index t 1 * 128 ≤ (i 1).val ∧ (i 1).val < win2_2.index t 1 * 128 + 128; rw [hi.2]; omega

theorem outp_final (c : Dev nD) : (dat2 (F := Ideal) V c).arrAt 2 cfg2.N = outpOf (V c main_v5) (V c main_v8) :=
  (dat2 (F := Ideal) V c).arrAt_eq_of_cover 2 _ (flushed2_eq V c) outCover2

end Cert.Val

end
-- ==== Proof.Val.KernelVal.lean ====
import proofs.«418018_j53446573032075_1_alg».proof.Proof.KI.Run
import proofs.«418018_j53446573032075_1_alg».proof.Proof.Val.Spec
import proofs.«418018_j53446573032075_1_alg».proof.Proof.Val.Host
import proofs.«418018_j53446573032075_1_alg».proof.Proof.Val.Arr0
import proofs.«418018_j53446573032075_1_alg».proof.Proof.Val.Arr1
import proofs.«418018_j53446573032075_1_alg».proof.Proof.Val.Arr2

noncomputable section

namespace Cert.Val

open Cert.KernelIdeal Cert.KernelIdeal.Gen Cert.KernelIdeal.Hand Idealize.ShloMosaic Idealize.ShloMosaic.TcCoe

variable (m : (ℓ : Loc nD τ sig) → Buf (Elt Ideal) ℓ) (c : Dev nD)

-- each pass leaves its array as a function of the arrays it found; the host operations between them pad and cut
theorem result_eq : (V12 m (oC m) c main_v10 : FVec Ideal S100000x128 .f32)
    = kernelOut (m ((c : Thread nD τ).loc main_arg0)) (m ((c : Thread nD τ).loc main_arg1)) (m ((c : Thread nD τ).loc main_arg2)) (m ((c : Thread nD τ).loc main_arg3)) (m ((c : Thread nD τ).loc main_arg4)) := by
  have h0 : (oA m 1 main_v0 c : FVec Ideal S100000x128 .f32)
      = hmat (m ((c : Thread nD τ).loc main_arg0)) (m ((c : Thread nD τ).loc main_arg1)) :=
    (oA_v0 m 1 c).trans (h_final (E0 m) c)
  have h1 : (oB m 10 main_v8 c : FVec Ideal S1601536x128 .bf16) = _ :=
    (oB_v8 m 10 c).trans ((msgs_final (E1 m) c).trans (congr (congrArg₂ msgsOf (V9_cols m (oA m) c) (V9_vals m (oA m) c))
      ((V9_hpad m (oA m) c).trans (congrArg padRows h0))))
  have h2 : (oC m 11 main_v9 c : FVec Ideal S100352x128 .f32) = _ :=
    (oC_v9 m 11 c).trans ((outp_final (E2 m) c).trans (congrArg₂ outpOf (V10_rows m (oB m) c) ((V10_msgs m (oB m) c).trans h1)))
  exact (V12_out m (oC m) c).trans (congrArg firstRows h2)

end Cert.Val

end
-- ==== Proof.Val.Ref.lean ====
import proofs.«418018_j53446573032075_1_alg».proof.Proof.Gen.ReferenceIdeal.Run
import proofs.«418018_j53446573032075_1_alg».proof.Proof.Gen.ReferenceIdeal.Read
import proofs.«418018_j53446573032075_1_alg».proof.Proof.Val.Spec
import Idealize.ShloMosaic.Lib.ValueIdx
import Idealize.ShloMosaic.PureOps.Ideal.Laws
import Idealize.ShloMosaic.Lib.StableHlo.Predicate
import Idealize.ShloMosaic.Lib.Pipeline.Value

noncomputable section

namespace Cert.Val

open Idealize.ShloMosaic Idealize.ShloMosaic.ValueIdx
open Idealize.ShloMosaic.StableHlo.Predicate
open Cert.KernelIdeal
open Cert.ReferenceIdeal (S1600000x1 S1600000x128 gather_S100000x128_S1600000x1_S1600000x128_1_0_n_n_0_1_1128 scatter_S100000x128_S1600000x1_S1600000x128_1_0_0_1)
open Cert.ReferenceIdeal.Read

namespace Ref

-- the row gather at (e, f): the operand's row at the start index idx[e, 0] (read signed, clamped into the rows), entry f
theorem gather_apply {α : Type} (x : S100000x128.Idx → α) (idx : IVec S1600000x1 32) (e : Fin 1600000) (f : Fin 128) :
    Host.gather gather_S100000x128_S1600000x1_S1600000x128_1_0_n_n_0_1_1128 x idx (ix2 e f)
      = x (ix2 ⟨min (idx (ix2 e 0)).toInt.toNat (100000 - 1), by omega⟩ f) := by
  unfold Host.gather
  refine congrArg x (Shape.idx_ext₂ (congrArg (fun v => min (idx v).toInt.toNat (100000 - 1)) (Shape.idx_ext₂ rfl rfl)) ?_)
  simp [GatherDims.operandIdx, GatherDims.start, GatherDims.batchCoord, GatherDims.offCoord, GatherDims.sKept, Shape.kept,
    gather_S100000x128_S1600000x1_S1600000x128_1_0_n_n_0_1_1128, List.finRange, List.ofFn]
  rfl

-- update element (e, f) of the row scatter lands on (r, f) when the start index idx[e, 0], read signed, is the row r, and nowhere otherwise
theorem scatter_resultIdx (idx : IVec S1600000x1 32) (e : Fin 1600000) (f : Fin 128) (r : Fin 100000) (g : Fin 128) :
    scatter_S100000x128_S1600000x1_S1600000x128_1_0_0_1.resultIdx? (ix2 e f) idx = some (ix2 r g)
      ↔ (idx (ix2 e 0)).toInt = (r.val : Int) ∧ f = g := by
  have hs0 : scatter_S100000x128_S1600000x1_S1600000x128_1_0_0_1.start (ix2 e f) idx 0 = (idx (ix2 e 0)).toInt :=
    congrArg (fun v => (idx v).toInt) (Shape.idx_ext₂ rfl rfl)
  have hs1 : scatter_S100000x128_S1600000x1_S1600000x128_1_0_0_1.start (ix2 e f) idx 1 = 0 := rfl
  have hw0 : scatter_S100000x128_S1600000x1_S1600000x128_1_0_0_1.window (ix2 e f) 0 = 0 := by
    simp [ScatterDims.window, ScatterDims.sKept, Shape.kept, scatter_S100000x128_S1600000x1_S1600000x128_1_0_0_1, List.finRange, List.ofFn]
  have hw1 : scatter_S100000x128_S1600000x1_S1600000x128_1_0_0_1.window (ix2 e f) 1 = f.val := by
    simp [ScatterDims.window, ScatterDims.sKept, Shape.kept, scatter_S100000x128_S1600000x1_S1600000x128_1_0_0_1, List.finRange, List.ofFn]
    rfl
  have hr := r.isLt
  have hf := f.isLt
  generalize scatter_S100000x128_S1600000x1_S1600000x128_1_0_0_1 = d at hs0 hs1 hw0 hw1 ⊢
  unfold ScatterDims.resultIdx?
  constructor
  · intro h
    split at h
    · rename_i hall
      have h' := Option.some.inj h
      have e0 : (d.start (ix2 e f) idx 0 + (d.window (ix2 e f) 0 : Int)).toNat = r.val := congrArg Fin.val (congrFun h' 0)
      have e1 : (d.start (ix2 e f) idx 1 + (d.window (ix2 e f) 1 : Int)).toNat = g.val := congrArg Fin.val (congrFun h' 1)
      have p0 := (hall 0).1
      rw [hs0, hw0] at e0 p0
      rw [hs1, hw1] at e1
      exact ⟨by omega, Fin.ext (by omega)⟩
    · exact absurd h (by simp)
  · rintro ⟨hi, rfl⟩
    have hall : ∀ a : Fin 2, 0 ≤ d.start (ix2 e f) idx a + (d.window (ix2 e f) a : Int) ∧
        d.start (ix2 e f) idx a + (d.window (ix2 e f) a : Int) < (S100000x128.size a : Nat) := by
      intro a
      match a with
      | ⟨0, _⟩ =>
        show 0 ≤ d.start (ix2 e f) idx 0 + (d.window (ix2 e f) 0 : Int) ∧ d.start (ix2 e f) idx 0 + (d.window (ix2 e f) 0 : Int) < (100000 : Int)
        rw [hs0, hw0, hi]; omega
      | ⟨1, _⟩ =>
        show 0 ≤ d.start (ix2 e f) idx 1 + (d.window (ix2 e f) 1 : Int) ∧ d.start (ix2 e f) idx 1 + (d.window (ix2 e f) 1 : Int) < (128 : Int)
        rw [hs1, hw1]; omega
    rw [dif_pos hall]
    refine congrArg some (Shape.idx_ext₂ ?_ ?_)
    · show (d.start (ix2 e f) idx 0 + (d.window (ix2 e f) 0 : Int)).toNat = r.val
      rw [hs0, hw0, hi]; omega
    · show (d.start (ix2 e f) idx 1 + (d.window (ix2 e f) 1 : Int)).toNat = f.val
      rw [hs1, hw1]; omega

-- the accumulating scatter at (r, g): the operand's entry plus entry g of the update rows whose start index is r
theorem scatterAdd_apply (x : S100000x128.Idx → EReal) (idx : IVec S1600000x1 32) (upd : S1600000x128.Idx → EReal)
    (r : Fin 100000) (g : Fin 128) :
    Ideal.hostScatterAdd scatter_S100000x128_S1600000x1_S1600000x128_1_0_0_1 x idx upd (ix2 r g)
      = x (ix2 r g) + ∑ e : Fin 1600000, if (idx (ix2 e 0)).toInt = (r.val : Int) then upd (ix2 e g) else 0 := by
  unfold Ideal.hostScatterAdd
  refine congrArg (x (ix2 r g) + ·) ?_
  rw [Finset.sum_filter, sum_idx2]
  refine Finset.sum_congr rfl fun e _ => ?_
  by_cases hr : (idx (ix2 e 0)).toInt = (r.val : Int)
  · rw [Finset.sum_eq_single g, if_pos ((scatter_resultIdx idx e g r g).mpr ⟨hr, rfl⟩), if_pos hr]
    · intro f _ hf
      exact if_neg fun h => hf ((scatter_resultIdx idx e f r g).mp h).2
    · intro h
      exact absurd (Finset.mem_univ _) h
  · rw [if_neg hr]
    exact Finset.sum_eq_zero fun f _ => if_neg fun h => hr ((scatter_resultIdx idx e f r g).mp h).1

theorem idx_col_v7 (e : Fin 1600000) : idx_main_v7 (ix2 e 0) = ix1 e := funext fun a => match a with | ⟨0, _⟩ => rfl
theorem idx_col_v12 (e : Fin 1600000) : idx_main_v12 (ix2 e 0) = ix1 e := funext fun a => match a with | ⟨0, _⟩ => rfl
theorem idx_col_v9 (e : Fin 1600000) (g : Fin 128) : idx_main_v1 (idx_main_v9 (ix2 e g)) = ix1 e :=
  funext fun a => match a with | ⟨0, _⟩ => rfl

theorem ref_hmat (x0 : FVec Ideal S100000x128 .f32) (x1 : FVec Ideal S128x128 .f32) :
    val_main_v0 (F := Ideal) x0 x1 = hmat x0 x1 := by
  funext i
  rw [val_main_v0_apply]
  unfold hmat
  refine Finset.sum_congr rfl fun k _ => ?_
  congr 2 <;> exact Shape.idx_ext₂ rfl rfl

-- a column word below 100000 is not negative read signed, so the wrap-around of negative columns leaves it and the clamp too
theorem ref_gather (x0 : FVec Ideal S100000x128 .f32) (x1 : FVec Ideal S128x128 .f32) (x4 : IVec S1600000 32)
    (hc : ∀ e : Fin 1600000, (x4 (ix1 e)).toNat < 100000) (e : Fin 1600000) (f : Fin 128) :
    val_main_v8 (F := Ideal) x0 x1 x4 (ix2 e f) = hmat x0 x1 (ix2 ⟨(x4 (ix1 e)).toNat % 100000, Nat.mod_lt _ (by norm_num)⟩ f) := by
  have hlt := hc e
  have h6 : val_main_v6 (F := Ideal) x4 (ix1 e) = x4 (ix1 e) := by
    rw [val_main_v6_apply, val_main_v3_apply, val_main_v2_apply, val_main_c_apply]
    have h : ¬ IntOp.cmpi .slt (x4 (ix1 e)) 0#32 = 1#1 := by
      rw [slt_iff_toNat (by omega) (by decide)]
      simp
    rw [eq_zero_of_ne_one h, select_zero]
  unfold val_main_v8
  rw [gather_apply, ref_hmat]
  refine congrArg (hmat x0 x1) (Shape.idx_ext₂ ?_ rfl)
  show min (val_main_v7 (F := Ideal) x4 (ix2 e 0)).toInt.toNat (100000 - 1) = (x4 (ix1 e)).toNat % 100000
  rw [val_main_v7_apply, idx_col_v7, h6, toInt_eq_toNat_of_lt (by omega), Int.toNat_natCast]
  omega

end Ref

open Ref in
theorem ref_value (x0 : FVec Ideal S100000x128 .f32) (x1 : FVec Ideal S128x128 .f32) (x2 : FVec Ideal S1600000 .f32) (x3 x4 : IVec S1600000 32)
    (hc : ∀ e : Fin 1600000, (x4 (ix1 e)).toNat < 100000) :
    Cert.ReferenceIdeal.Read.val_main_v13 (F := Ideal) x0 x1 x2 x3 x4 = layerOut x0 x1 x2 x3 x4 := by
  funext i
  obtain ⟨r, g, rfl⟩ : ∃ (r : Fin 100000) (g : Fin 128), i = ix2 r g := ⟨i 0, i 1, eq_ix2 i⟩
  unfold val_main_v13
  rw [show Host.scatterAdd _ _ _ _ = Ideal.hostScatterAdd _ _ _ _ from rfl, scatterAdd_apply, val_main_v11_apply, val_main_cst_apply,
    Ideal.ofBits_def, Ideal.ofBits_zero_f32, zero_add]
  unfold layerOut hot
  refine Finset.sum_congr rfl fun e _ => ?_
  have h12 : val_main_v12 (F := Ideal) x3 (ix2 e 0) = x3 (ix1 e) := by
    rw [val_main_v12_apply, idx_col_v12]
  have hval : val_main_v10 (F := Ideal) x0 x1 x2 x4 (ix2 e g)
      = x2 (ix1 e) * hmat x0 x1 (ix2 ⟨(x4 (ix1 e)).toNat % 100000, Nat.mod_lt _ (by norm_num)⟩ g) := by
    rw [val_main_v10_apply, ref_gather x0 x1 x4 hc e g, val_main_v9_apply, val_main_v1_apply, idx_col_v9, Ideal.mulf_def]
  rw [h12, hval]
  have hr : r.val < 2 ^ 31 := by have := r.isLt; omega
  by_cases hrow : BitVec.ofNat 32 r.val = x3 (ix1 e)
  · have hi : (x3 (ix1 e)).toInt = (r.val : Int) := by rw [← hrow]; exact toInt_ofNat_small r.val hr
    rw [if_pos hrow, if_pos hi]
  · have hi : ¬ (x3 (ix1 e)).toInt = (r.val : Int) := fun h =>
      hrow (BitVec.eq_of_toInt_eq (by rw [h]; exact toInt_ofNat_small r.val hr))
    rw [if_neg hrow, if_neg hi]

end Cert.Val

end
-- ==== Proof.Val.Bridge.lean ====
import proofs.«418018_j53446573032075_1_alg».proof.Proof.Val.Spec
import Mathlib.Algebra.BigOperators.Fin
import Mathlib.Algebra.BigOperators.Group.Finset.Basic
import Mathlib.Data.EReal.Basic

noncomputable section

namespace Cert.Val

open Idealize.ShloMosaic Idealize.ShloMosaic.ValueIdx
open Cert.KernelIdeal

namespace Bridge

theorem ofNat_eq_iff {n : ℕ} (hn : n < 2 ^ 32) (c : BitVec 32) : BitVec.ofNat 32 n = c ↔ n = c.toNat :=
  ⟨fun h => by rw [← h, BitVec.toNat_ofNat, Nat.mod_eq_of_lt hn],
    fun h => BitVec.eq_of_toNat_eq (by rw [BitVec.toNat_ofNat, h, Nat.mod_eq_of_lt c.isLt])⟩

theorem ofNat_ne_pad {n : ℕ} (hn : n < 100000) : BitVec.ofNat 32 n ≠ 4294967295#32 := fun h => by
  have h1 := (ofNat_eq_iff (n := n) (by omega) _).1 h
  have h2 : (4294967295#32 : BitVec 32).toNat = 4294967295 := by decide
  omega

theorem sum_fin_trunc {M : Type*} [AddCommMonoid M] {N n : ℕ} (h : n ≤ N) (f : Fin N → M)
    (hz : ∀ e : Fin N, n ≤ e.val → f e = 0) :
    ∑ e : Fin N, f e = ∑ e : Fin n, f ⟨e.val, Nat.lt_of_lt_of_le e.isLt h⟩ := by
  obtain ⟨m, rfl⟩ := Nat.exists_eq_add_of_le h
  rw [Fin.sum_univ_add]
  have h2 : ∑ i : Fin m, f (Fin.natAdd n i) = 0 :=
    Finset.sum_eq_zero (fun i _ => hz _ (by rw [Fin.coe_natAdd]; exact Nat.le_add_right _ _))
  rw [h2, add_zero]
  rfl

theorem sum_hot_col {N : ℕ} (hN : N ≤ 2 ^ 32) (c : BitVec 32) (hc : c.toNat < N) (v : EReal) (g : Fin N → EReal) :
    ∑ n : Fin N, hot (BitVec.ofNat 32 n.val) c v * g n = v * g ⟨c.toNat, hc⟩ := by
  rw [Finset.sum_eq_single (⟨c.toNat, hc⟩ : Fin N)]
  · have hcc : BitVec.ofNat 32 c.toNat = c := (ofNat_eq_iff c.isLt c).2 rfl
    show hot (BitVec.ofNat 32 c.toNat) c v * g ⟨c.toNat, hc⟩ = v * g ⟨c.toNat, hc⟩
    rw [hcc, hot_eq]
  · intro n _ hne
    have hw : BitVec.ofNat 32 n.val ≠ c := by
      intro heq
      exact hne (Fin.ext ((ofNat_eq_iff (Nat.lt_of_lt_of_le n.isLt hN) c).1 heq))
    rw [hot_ne hw, zero_mul]
  · intro h
    exact absurd (Finset.mem_univ _) h

theorem padIdx_real (a : IVec S1600000 32) (e : Fin 1601536) (h : e.val < 1600000) :
    padIdx a (ix2 0 e) = a (ix1 ⟨e.val, h⟩) := dif_pos h

theorem padIdx_pad (a : IVec S1600000 32) (e : Fin 1601536) (h : ¬ e.val < 1600000) :
    padIdx a (ix2 0 e) = 4294967295#32 := dif_neg h

theorem padVals_real (v : FVec Ideal S1600000 .f32) (e : Fin 1601536) (h : e.val < 1600000) :
    padVals v (ix2 0 e) = v (ix1 ⟨e.val, h⟩) := dif_pos h

theorem padRows_real (g : FVec Ideal S100000x128 .f32) (n : Fin 100352) (j : Fin 128) (h : n.val < 100000) :
    padRows g (ix2 n j) = g (ix2 ⟨n.val, h⟩ j) := dif_pos h

theorem msgsOf_real (g : FVec Ideal S100000x128 .f32) (vals : FVec Ideal S1600000 .f32) (cols : IVec S1600000 32)
    (e : Fin 1601536) (h : e.val < 1600000) (j : Fin 128) (hc : (cols (ix1 ⟨e.val, h⟩)).toNat < 100000) :
    msgsOf (padIdx cols) (padVals vals) (padRows g) (ix2 e j)
      = vals (ix1 ⟨e.val, h⟩) * g (ix2 ⟨(cols (ix1 ⟨e.val, h⟩)).toNat, hc⟩ j) := by
  show ∑ n : Fin 100352, hot (BitVec.ofNat 32 n.val) (padIdx cols (ix2 0 e)) (padVals vals (ix2 0 e)) * padRows g (ix2 n j) = _
  rw [padIdx_real cols e h, padVals_real vals e h]
  rw [sum_hot_col (N := 100352) (by norm_num) (cols (ix1 ⟨e.val, h⟩)) (Nat.lt_trans hc (by norm_num))
    (vals (ix1 ⟨e.val, h⟩)) (fun n => padRows g (ix2 n j))]
  show _ * padRows g (ix2 ⟨(cols (ix1 ⟨e.val, h⟩)).toNat, _⟩ j) = _
  rw [padRows_real g _ j hc]

end Bridge

open Bridge

theorem kernelOut_eq_layerOut (x : FVec Ideal S100000x128 .f32) (w : FVec Ideal S128x128 .f32)
    (vals : FVec Ideal S1600000 .f32) (rows cols : IVec S1600000 32)
    (hc : ∀ e : Fin 1600000, (cols (ix1 e)).toNat < 100000) :
    kernelOut x w vals rows cols = layerOut x w vals rows cols := by
  funext i
  have hi : (i 0).val < 100000 := idx2_lt0 i
  show ∑ e : Fin 1601536, hot (BitVec.ofNat 32 (i 0).val) (padIdx rows (ix2 0 e)) 1
        * msgsOf (padIdx cols) (padVals vals) (padRows (hmat x w)) (ix2 e (i 1))
      = ∑ e : Fin 1600000, hot (BitVec.ofNat 32 (i 0).val) (rows (ix1 e))
          (vals (ix1 e) * hmat x w (ix2 ⟨(cols (ix1 e)).toNat % 100000, Nat.mod_lt _ (by norm_num)⟩ (i 1)))
  rw [sum_fin_trunc (N := 1601536) (n := 1600000) (by norm_num) _ (fun e he => by
    rw [padIdx_pad rows e (Nat.not_lt.2 he), hot_ne (ofNat_ne_pad hi), zero_mul])]
  refine Finset.sum_congr rfl (fun e _ => ?_)
  have he : (⟨e.val, Nat.lt_of_lt_of_le e.isLt (by norm_num)⟩ : Fin 1601536).val < 1600000 := e.isLt
  rw [padIdx_real rows _ he, msgsOf_real (hmat x w) vals cols _ he (i 1) (hc e), hot_one_mul]
  have hk : (⟨(cols (ix1 e)).toNat % 100000, Nat.mod_lt _ (by norm_num)⟩ : Fin 100000)
      = ⟨(cols (ix1 e)).toNat, hc e⟩ := Fin.ext (Nat.mod_eq_of_lt (hc e))
  rw [hk]

end Cert.Val

end
-- ==== Proof.Val.PreDecode.lean ====
import proofs.«418018_j53446573032075_1_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.Val

open Idealize.ShloMosaic Idealize.ShloMosaic.ValueIdx Cert.Pre_finite_inputs

local instance subsingleton_scalar_idx : Subsingleton S_.Idx := ⟨fun a b => funext fun d => d.elim0⟩

-- a word in [0, n) read signed (n below 2³¹) is below n read unsigned
theorem toNat_lt_of_signed_range (w : BitVec 32) (n : Nat) (hn : n < 2 ^ 31)
    (h0 : IntOp.cmpi .sge w (0#32) = 1#1) (h1 : IntOp.cmpi .slt w (BitVec.ofNat 32 n) = 1#1) : w.toNat < n := by
  have hw : w.toNat < 2 ^ 31 := by
    unfold IntOp.cmpi at h0
    rw [StableHlo.Predicate.ofBool_eq_one_iff] at h0
    simp only [BitVec.sle, decide_eq_true_eq] at h0
    have hz : (0#32 : BitVec 32).toInt = 0 := by decide
    rw [hz, BitVec.toInt_eq_toNat_cond] at h0
    have := w.isLt
    split at h0 <;> omega
  have hb : (BitVec.ofNat 32 n).toNat = n := by
    rw [BitVec.toNat_ofNat]; exact Nat.mod_eq_of_lt (by omega)
  have := (StableHlo.Predicate.slt_iff_toNat hw (by rw [hb]; exact hn)).1 h1
  rwa [hb] at this

theorem bcast_scalar_edges {α : Type} (hb : S_.BroadcastsInDim S1600000 (![] : Fin 0 → Fin S1600000.rank)) (v : S_.Idx → α)
    (i : S1600000.Idx) : broadcastInDim S1600000 ![] hb v i = v ix0 := by
  simp only [broadcastInDim]
  congr 1
  funext a
  exact a.elim0

-- the predicate's last conjunct is an and-reduction over the edges: when it is 1, every edge passes both comparisons
theorem part1_all {F : FTy → Type} [FloatOps F] [Cert.Pre_finite_inputs.Facts]
    (x4 : IVec S1600000 32) (v13 : IVec S_ 1) (v15 : IVec S1600000 1) (c5 : IVec S_ 32)
    (h : fn_part1 (F := F) x4 v13 v15 c5 ix0 = 1#1) (i : S1600000.Idx) :
    v15 i = 1#1 ∧ IntOp.cmpi .slt (x4 i) (c5 ix0) = 1#1 := by
  unfold fn_part1 at h
  dsimp only at h
  have h3 := IntOp.andi_eq_one.1 (Host.reduce_andi_all _ _ _ _ _ (IntOp.andi_eq_one.1 h).2 i)
  refine ⟨h3.1, ?_⟩
  have h4 := h3.2
  unfold cmpi at h4
  rwa [bcast_scalar_edges] at h4

theorem cols_lt [Cert.Pre_finite_inputs.Facts]
    (x0 : FVec Ideal S100000x128 .f32) (x1 : FVec Ideal S128x128 .f32) (x2 : FVec Ideal S1600000 .f32) (x3 x4 : IVec S1600000 32)
    (h : Cert.Pre_finite_inputs.fn (F := Ideal) x0 x1 x2 x3 x4 = fun _ => 1#1) :
    ∀ e : Fin 1600000, (x4 (ix1 e)).toNat < 100000 := by
  intro e
  have h0 : fn_part1 (F := Ideal) x4 _
      (cmpi .sge x4 (broadcastInDim S1600000 ![] Facts.bcast_S_S1600000 (constantI S_ 32 0#32)))
      (constantI S_ 32 100000#32) ix0 = 1#1 := congrFun h ix0
  obtain ⟨hge, hlt⟩ := part1_all x4 _ _ _ h0 (ix1 e)
  unfold cmpi at hge
  rw [bcast_scalar_edges] at hge
  exact toNat_lt_of_signed_range _ 100000 (by norm_num) hge hlt

end Cert.Val

end
-- ==== Proof.lean ====
import proofs.«418018_j53446573032075_1_alg».proof.Defs
import proofs.«418018_j53446573032075_1_alg».proof.Proof.Gen.Kernel
import proofs.«418018_j53446573032075_1_alg».proof.Proof.Gen.KernelIdeal
import proofs.«418018_j53446573032075_1_alg».proof.Proof.Gen.ReferenceIdeal
import proofs.«418018_j53446573032075_1_alg».proof.Proof.Gen.Pre_finite_inputs
import proofs.«418018_j53446573032075_1_alg».proof.Proof.Gen.ReferenceIdeal.Run
import proofs.«418018_j53446573032075_1_alg».proof.Proof.Gen.ReferenceIdeal.Read
import proofs.«418018_j53446573032075_1_alg».proof.Proof.K.Run
import proofs.«418018_j53446573032075_1_alg».proof.Proof.KI.Run
import proofs.«418018_j53446573032075_1_alg».proof.Proof.Val.KernelVal
import proofs.«418018_j53446573032075_1_alg».proof.Proof.Val.Ref
import proofs.«418018_j53446573032075_1_alg».proof.Proof.Val.Bridge
import proofs.«418018_j53446573032075_1_alg».proof.Proof.Val.PreDecode
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Hand.frame (F := Bits) m ρ

theorem frame_ki [Cert.KernelIdeal.Facts] [Cert.Pre_finite_inputs.Facts] : Cert.frame_KernelIdeal :=
  fun m ρ _ => Cert.KernelIdeal.Hand.frame (F := Ideal) m ρ

/-- The reference launches no kernel: its frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both results are the graph layer of the shared arguments: the one-hot sums select exactly the reference's gathered and scattered terms once every column index is a node. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Val.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩) (Cert.KernelIdeal.Hand.run_all (F := Ideal) m ρ)
    · exact (h c _ (Cert.KernelIdeal.Hand.mem_uc Cert.KernelIdeal.main_v10 (by decide))).trans (Cert.Val.result_eq m c)
    · exact (h c _ (Cert.KernelIdeal.Hand.mem_uc Cert.KernelIdeal.main_arg0 (by decide))).trans (Cert.KernelIdeal.Gen.V12_main_arg0 m _ c)
    · exact (h c _ (Cert.KernelIdeal.Hand.mem_uc Cert.KernelIdeal.main_arg1 (by decide))).trans (Cert.KernelIdeal.Gen.V12_main_arg1 m _ c)
    · exact (h c _ (Cert.KernelIdeal.Hand.mem_uc Cert.KernelIdeal.main_arg2 (by decide))).trans (Cert.KernelIdeal.Gen.V12_main_arg2 m _ c)
    · exact (h c _ (Cert.KernelIdeal.Hand.mem_uc Cert.KernelIdeal.main_arg3 (by decide))).trans (Cert.KernelIdeal.Gen.V12_main_arg3 m _ c)
    · exact (h c _ (Cert.KernelIdeal.Hand.mem_uc Cert.KernelIdeal.main_arg4 (by decide))).trans (Cert.KernelIdeal.Gen.V12_main_arg4 m _ c)
  · refine (θ_run Cert.ReferenceIdeal.defs _ _).mono (fun _ h c => ⟨(h c).1.trans ?_, (h c).2⟩)
      (Cert.ReferenceIdeal.Value.run (F := Ideal) m' ρ')
    have hc := Cert.Val.cols_lt _ _ _ _ _ (hpre c)
    rw [(hagree c).1, (hagree c).2.1, (hagree c).2.2.1, (hagree c).2.2.2.1, (hagree c).2.2.2.2]
    exact ((Cert.ReferenceIdeal.Read.val_main_v13_eq _ _ _ _ _).trans (Cert.Val.ref_value _ _ _ _ _ hc)).trans
      (Cert.Val.kernelOut_eq_layerOut _ _ _ _ _ hc).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
